-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S512x16 : Shape := ⟨2, ![512, 16]⟩
abbrev S16 : Shape := ⟨1, ![16]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S2x160000 : S_.BroadcastsInDim S2x160000 (![] : Fin 0 → Fin S2x160000.rank)
  reducesTo_S2x160000_S_d0_1 : S2x160000.ReducesTo [0, 1] S_

variable [Facts]

def fn_part2 {F : FTy → Type} [FloatOps F] (main_arg1 : IVec S2x160000 32) (main_v33 : IVec S_ 1) : IVec S_ 1 :=
  let main_c_12 : IVec S_ 32 := constantI S_ 32 0#32
  let main_v34 : IVec S2x160000 32 := broadcastInDim S2x160000 ![] bcast_S_S2x160000 main_c_12
  let main_v35 : IVec S2x160000 1 := cmpi .sge main_arg1 main_v34
  let main_c_13 : IVec S_ 32 := constantI S_ 32 10000#32
  let main_v36 : IVec S2x160000 32 := broadcastInDim S2x160000 ![] bcast_S_S2x160000 main_c_13
  let main_v37 : IVec S2x160000 1 := cmpi .slt main_arg1 main_v36
  let main_v38 : IVec S2x160000 1 := andi main_v35 main_v37
  let main_c_14 : IVec S_ 1 := constantI S_ 1 1#1
  let main_v39 : IVec S_ 1 := (fun x v => Host.reduce IntOp.andi x v reducesTo_S2x160000_S_d0_1 h_S_) main_v38 main_c_14
  let main_v40 : IVec S_ 1 := andi main_v33 main_v39
  main_v40

def fn_part1 {F : FTy → Type} [FloatOps F] (main_arg1 : IVec S2x160000 32) (main_arg5 : FVec F S512 .f32) (main_arg6 : FVec F S512x16 .f32) (main_arg7 : FVec F S16 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x16 .f32 := Host.absf main_arg6
  let main_cst_8 : FVec F S_ .f32 := constant S_ .f32 0x7F800000#32
  let main_v25 : FVec F S512x16 .f32 := broadcastInDim S512x16 ![] bcast_S_S512x16 main_cst_8
  let main_v26 : IVec S512x16 1 := cmpf .olt main_v24 main_v25
  let main_c_9 : IVec S_ 1 := constantI S_ 1 1#1
  let main_v27 : IVec S_ 1 := (fun x v => Host.reduce IntOp.andi x v reducesTo_S512x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg1 main_v33

def fn {F : FTy → Type} [FloatOps F] (main_arg0 : FVec F S10000x512 .f32) (main_arg1 : IVec S2x160000 32) (main_arg2 : FVec F S512x512 .f32) (main_arg3 : FVec F S512 .f32) (main_arg4 : FVec F S512x512 .f32) (main_arg5 : FVec F S512 .f32) (main_arg6 : FVec F S512x16 .f32) (main_arg7 : FVec F S16 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg1 main_arg5 main_arg6 main_arg7 main_v13 main_v16
-- ==== Kernel.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S512x16 : Shape := ⟨2, ![512, 16]⟩
abbrev S16 : Shape := ⟨1, ![16]⟩
abbrev S1x160000 : Shape := ⟨2, ![1, 160000]⟩
abbrev S160000 : Shape := ⟨1, ![160000]⟩
abbrev S_ : Shape := ⟨0, ![]⟩
abbrev S10000 : Shape := ⟨1, ![10000]⟩
abbrev S160000x1 : Shape := ⟨2, ![160000, 1]⟩
abbrev S10240 : Shape := ⟨1, ![10240]⟩
abbrev S1 : Shape := ⟨1, ![1]⟩
abbrev S10240x1 : Shape := ⟨2, ![10240, 1]⟩
abbrev S170000 : Shape := ⟨1, ![170000]⟩
abbrev S10240x10240 : Shape := ⟨2, ![10240, 10240]⟩
abbrev S170000x1 : Shape := ⟨2, ![170000, 1]⟩
abbrev S170000x2 : Shape := ⟨2, ![170000, 2]⟩
abbrev S10240x512 : Shape := ⟨2, ![10240, 512]⟩
abbrev S512x128 : Shape := ⟨2, ![512, 128]⟩
abbrev S1x128 : Shape := ⟨2, ![1, 128]⟩
abbrev S2 : Shape := ⟨1, ![2]⟩
abbrev S1x512 : Shape := ⟨2, ![1, 512]⟩
abbrev S2560x512 : Shape := ⟨2, ![2560, 512]⟩
abbrev S2560x1 : Shape := ⟨2, ![2560, 1]⟩
abbrev S2560x1280 : Shape := ⟨2, ![2560, 1280]⟩
abbrev S1280x512 : Shape := ⟨2, ![1280, 512]⟩
abbrev S10240x128 : Shape := ⟨2, ![10240, 128]⟩
abbrev S2560x128 : Shape := ⟨2, ![2560, 128]⟩
abbrev S10000x16 : Shape := ⟨2, ![10000, 16]⟩

abbrev nBuf : Space → Nat
  | .hbm => 93
  | .vmem => 47
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x16, .f32⟩
  | .hbm, ⟨7, _⟩ => ⟨S16, .f32⟩
  | .hbm, ⟨8, _⟩ => ⟨S1x160000, .i32⟩
  | .hbm, ⟨9, _⟩ => ⟨S160000, .i32⟩
  | .hbm, ⟨10, _⟩ => ⟨S1x160000, .i32⟩
  | .hbm, ⟨11, _⟩ => ⟨S160000, .i32⟩
  | .hbm, ⟨12, _⟩ => ⟨S_, .f32⟩
  | .hbm, ⟨13, _⟩ => ⟨S10000, .f32⟩
  | .hbm, ⟨14, _⟩ => ⟨S_, .i32⟩
  | .hbm, ⟨15, _⟩ => ⟨S160000, .i32⟩
  | .hbm, ⟨16, _⟩ => ⟨S160000, .i1⟩
  | .hbm, ⟨17, _⟩ => ⟨S_, .i32⟩
  | .hbm, ⟨18, _⟩ => ⟨S160000, .i32⟩
  | .hbm, ⟨19, _⟩ => ⟨S160000, .i32⟩
  | .hbm, ⟨20, _⟩ => ⟨S160000, .i32⟩
  | .hbm, ⟨21, _⟩ => ⟨S160000x1, .i32⟩
  | .hbm, ⟨22, _⟩ => ⟨S_, .f32⟩
  | .hbm, ⟨23, _⟩ => ⟨S160000, .f32⟩
  | .hbm, ⟨24, _⟩ => ⟨S10000, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S_, .f32⟩
  | .hbm, ⟨29, _⟩ => ⟨S10240, .f32⟩
  | .hbm, ⟨30, _⟩ => ⟨S_, .i32⟩
  | .hbm, ⟨31, _⟩ => ⟨S1, .i32⟩
  | .hbm, ⟨32, _⟩ => ⟨S10240, .f32⟩
  | .hbm, ⟨33, _⟩ => ⟨S10240, .f32⟩
  | .hbm, ⟨34, _⟩ => ⟨S10240x1, .f32⟩
  | .hbm, ⟨35, _⟩ => ⟨S_, .f32⟩
  | .hbm, ⟨36, _⟩ => ⟨S10240x1, .f32⟩
  | .hbm, ⟨37, _⟩ => ⟨S10000, .i32⟩
  | .hbm, ⟨38, _⟩ => ⟨S170000, .i32⟩
  | .hbm, ⟨39, _⟩ => ⟨S170000, .i32⟩
  | .hbm, ⟨40, _⟩ => ⟨S_, .i32⟩
  | .hbm, ⟨41, _⟩ => ⟨S170000, .i32⟩
  | .hbm, ⟨42, _⟩ => ⟨S_, .i32⟩
  | .hbm, ⟨43, _⟩ => ⟨S10240x10240, .i32⟩
  | .hbm, ⟨44, _⟩ => ⟨S_, .i32⟩
  | .hbm, ⟨45, _⟩ => ⟨S170000, .i32⟩
  | .hbm, ⟨46, _⟩ => ⟨S170000, .i1⟩
  | .hbm, ⟨47, _⟩ => ⟨S_, .i32⟩
  | .hbm, ⟨48, _⟩ => ⟨S170000, .i32⟩
  | .hbm, ⟨49, _⟩ => ⟨S170000, .i32⟩
  | .hbm, ⟨50, _⟩ => ⟨S170000, .i32⟩
  | .hbm, ⟨51, _⟩ => ⟨S_, .i32⟩
  | .hbm, ⟨52, _⟩ => ⟨S170000, .i32⟩
  | .hbm, ⟨53, _⟩ => ⟨S170000, .i1⟩
  | .hbm, ⟨54, _⟩ => ⟨S_, .i32⟩
  | .hbm, ⟨55, _⟩ => ⟨S170000, .i32⟩
  | .hbm, ⟨56, _⟩ => ⟨S170000, .i32⟩
  | .hbm, ⟨57, _⟩ => ⟨S170000, .i32⟩
  | .hbm, ⟨58, _⟩ => ⟨S170000x1, .i32⟩
  | .hbm, ⟨59, _⟩ => ⟨S170000x1, .i32⟩
  | .hbm, ⟨60, _⟩ => ⟨S170000x2, .i32⟩
  | .hbm, ⟨61, _⟩ => ⟨S10240x10240, .i32⟩
  | .hbm, ⟨62, _⟩ => ⟨S10240x10240, .bf16⟩
  | .hbm, ⟨63, _⟩ => ⟨S_, .i32⟩
  | .hbm, ⟨64, _⟩ => ⟨S_, .f32⟩
  | .hbm, ⟨65, _⟩ => ⟨S10240x512, .f32⟩
  | .hbm, ⟨66, _⟩ => ⟨S10240x512, .bf16⟩
  | .hbm, ⟨67, _⟩ => ⟨S512x512, .bf16⟩
  | .hbm, ⟨68, _⟩ => ⟨S512x512, .bf16⟩
  | .hbm, ⟨69, _⟩ => ⟨S_, .f32⟩
  | .hbm, ⟨70, _⟩ => ⟨S512x128, .f32⟩
  | .hbm, ⟨71, _⟩ => ⟨S_, .i32⟩
  | .hbm, ⟨72, _⟩ => ⟨S1, .i32⟩
  | .hbm, ⟨73, _⟩ => ⟨S512x128, .f32⟩
  | .hbm, ⟨74, _⟩ => ⟨S512x128, .bf16⟩
  | .hbm, ⟨75, _⟩ => ⟨S_, .f32⟩
  | .hbm, ⟨76, _⟩ => ⟨S1x128, .f32⟩
  | .hbm, ⟨77, _⟩ => ⟨S_, .i32⟩
  | .hbm, ⟨78, _⟩ => ⟨S1, .i32⟩
  | .hbm, ⟨79, _⟩ => ⟨S_, .i32⟩
  | .hbm, ⟨80, _⟩ => ⟨S1, .i32⟩
  | .hbm, ⟨81, _⟩ => ⟨S2, .i32⟩
  | .hbm, ⟨82, _⟩ => ⟨S1x128, .f32⟩
  | .hbm, ⟨83, _⟩ => ⟨S_, .f32⟩
  | .hbm, ⟨84, _⟩ => ⟨S1x512, .f32⟩
  | .hbm, ⟨85, _⟩ => ⟨S1x512, .f32⟩
  | .hbm, ⟨86, _⟩ => ⟨S1x512, .f32⟩
  | .hbm, ⟨87, _⟩ => ⟨S10240x512, .bf16⟩
  | .hbm, ⟨88, _⟩ => ⟨S10240x512, .bf16⟩
  | .hbm, ⟨89, _⟩ => ⟨S10240x512, .bf16⟩
  | .hbm, ⟨90, _⟩ => ⟨S10240x512, .bf16⟩
  | .hbm, ⟨91, _⟩ => ⟨S10240x128, .f32⟩
  | .hbm, ⟨92, _⟩ => ⟨S10000x16, .f32⟩
  | .local _ .vmem, ⟨0, _⟩ => ⟨S2560x512, .bf16⟩
  | .local _ .vmem, ⟨1, _⟩ => ⟨S2560x512, .bf16⟩
  | .local _ .vmem, ⟨2, _⟩ => ⟨S512x512, .bf16⟩
  | .local _ .vmem, ⟨3, _⟩ => ⟨S1x512, .f32⟩
  | .local _ .vmem, ⟨4, _⟩ => ⟨S2560x1, .f32⟩
  | .local _ .vmem, ⟨5, _⟩ => ⟨S2560x1, .f32⟩
  | .local _ .vmem, ⟨6, _⟩ => ⟨S2560x512, .bf16⟩
  | .local _ .vmem, ⟨7, _⟩ => ⟨S2560x512, .bf16⟩
  | .local _ .vmem, ⟨8, _⟩ => ⟨S2560x512, .f32⟩
  | .local _ .vmem, ⟨9, _⟩ => ⟨S2560x1280, .bf16⟩
  | .local _ .vmem, ⟨10, _⟩ => ⟨S2560x1280, .bf16⟩
  | .local _ .vmem, ⟨11, _⟩ => ⟨S1280x512, .bf16⟩
  | .local _ .vmem, ⟨12, _⟩ => ⟨S1280x512, .bf16⟩
  | .local _ .vmem, ⟨13, _⟩ => ⟨S2560x1, .f32⟩
  | .local _ .vmem, ⟨14, _⟩ => ⟨S2560x1, .f32⟩
  | .local _ .vmem, ⟨15, _⟩ => ⟨S1x512, .f32⟩
  | .local _ .vmem, ⟨16, _⟩ => ⟨S2560x512, .bf16⟩
  | .local _ .vmem, ⟨17, _⟩ => ⟨S2560x512, .bf16⟩
  | .local _ .vmem, ⟨18, _⟩ => ⟨S2560x512, .f32⟩
  | .local _ .vmem, ⟨19, _⟩ => ⟨S2560x512, .bf16⟩
  | .local _ .vmem, ⟨20, _⟩ => ⟨S2560x512, .bf16⟩
  | .local _ .vmem, ⟨21, _⟩ => ⟨S512x512, .bf16⟩
  | .local _ .vmem, ⟨22, _⟩ => ⟨S1x512, .f32⟩
  | .local _ .vmem, ⟨23, _⟩ => ⟨S2560x1, .f32⟩
  | .local _ .vmem, ⟨24, _⟩ => ⟨S2560x1, .f32⟩
  | .local _ .vmem, ⟨25, _⟩ => ⟨S2560x512, .bf16⟩
  | .local _ .vmem, ⟨26, _⟩ => ⟨S2560x512, .bf16⟩
  | .local _ .vmem, ⟨27, _⟩ => ⟨S2560x512, .f32⟩
  | .local _ .vmem, ⟨28, _⟩ => ⟨S2560x1280, .bf16⟩
  | .local _ .vmem, ⟨29, _⟩ => ⟨S2560x1280, .bf16⟩
  | .local _ .vmem, ⟨30, _⟩ => ⟨S1280x512, .bf16⟩
  | .local _ .vmem, ⟨31, _⟩ => ⟨S1280x512, .bf16⟩
  | .local _ .vmem, ⟨32, _⟩ => ⟨S2560x1, .f32⟩
  | .local _ .vmem, ⟨33, _⟩ => ⟨S2560x1, .f32⟩
  | .local _ .vmem, ⟨34, _⟩ => ⟨S1x512, .f32⟩
  | .local _ .vmem, ⟨35, _⟩ => ⟨S2560x512, .bf16⟩
  | .local _ .vmem, ⟨36, _⟩ => ⟨S2560x512, .bf16⟩
  | .local _ .vmem, ⟨37, _⟩ => ⟨S2560x512, .f32⟩
  | .local _ .vmem, ⟨38, _⟩ => ⟨S2560x512, .bf16⟩
  | .local _ .vmem, ⟨39, _⟩ => ⟨S2560x512, .bf16⟩
  | .local _ .vmem, ⟨40, _⟩ => ⟨S512x128, .bf16⟩
  | .local _ .vmem, ⟨41, _⟩ => ⟨S1x128, .f32⟩
  | .local _ .vmem, ⟨42, _⟩ => ⟨S2560x1, .f32⟩
  | .local _ .vmem, ⟨43, _⟩ => ⟨S2560x1, .f32⟩
  | .local _ .vmem, ⟨44, _⟩ => ⟨S2560x128, .f32⟩
  | .local _ .vmem, ⟨45, _⟩ => ⟨S2560x128, .f32⟩
  | .local _ .vmem, ⟨46, _⟩ => ⟨S2560x128, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_c_7 : Ref sig .tc := ⟨.hbm, 42, rfl⟩
abbrev main_v25 : Ref sig .tc := ⟨.hbm, 43, rfl⟩
abbrev main_c_8 : Ref sig .tc := ⟨.hbm, 44, rfl⟩
abbrev main_v26 : Ref sig .tc := ⟨.hbm, 45, rfl⟩
abbrev main_v27 : Ref sig .tc := ⟨.hbm, 46, rfl⟩
abbrev main_c_9 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_10 : Ref sig .tc := ⟨.hbm, 51, rfl⟩
abbrev main_v31 : Ref sig .tc := ⟨.hbm, 52, rfl⟩
abbrev main_v32 : Ref sig .tc := ⟨.hbm, 53, rfl⟩
abbrev main_c_11 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_12 : Ref sig .tc := ⟨.hbm, 63, rfl⟩
abbrev main_call0_v0 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_13 : Ref sig .tc := ⟨.hbm, 69, rfl⟩
abbrev main_v45 : Ref sig .tc := ⟨.hbm, 70, rfl⟩
abbrev main_c_14 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_15 : Ref sig .tc := ⟨.hbm, 75, rfl⟩
abbrev main_v49 : Ref sig .tc := ⟨.hbm, 76, rfl⟩
abbrev main_c_16 : Ref sig .tc := ⟨.hbm, 77, rfl⟩
abbrev main_v50 : Ref sig .tc := ⟨.hbm, 78, rfl⟩
abbrev main_c_17 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_18 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc2_scratch0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg4_1 : Ref sig .tc := ⟨.vmem, 36, rfl⟩
abbrev cc3_scratch0 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg3_1 : Ref sig .tc := ⟨.vmem, 43, rfl⟩
abbrev cc4_stg4_0 : Ref sig .tc := ⟨.vmem, 44, rfl⟩
abbrev cc4_stg4_1 : Ref sig .tc := ⟨.vmem, 45, rfl⟩
abbrev cc4_scratch0 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem3_1 : DmaSem sig := 39
abbrev cc4_sem4_0 : DmaSem sig := 40
abbrev cc4_sem4_1 : DmaSem sig := 41

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2560x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S2560x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2560x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2560x1280 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1280x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2560x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2560x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨3, ![4, 1, 1], ![false, false, false]⟩

def k2_cond2 (i : grid2.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2560x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true, false]

abbrev stage2_3 : Fin 2 → Memref sig .tc .vmem S2560x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, false]

abbrev stage2_4 : Fin 2 → Memref sig .tc .vmem S2560x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev grid3 : Pipeline.Grid := ⟨2, ![4, 8], ![false, false]⟩

def k3_cond2 (i : grid3.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2560x1280 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1280x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2560x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S2560x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨3, ![4, 1, 1], ![false, false, false]⟩

def k4_cond2 (i : grid4.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2560x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S512x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, true, false]

abbrev stage4_3 : Fin 2 → Memref sig .tc .vmem S2560x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false, false]

abbrev stage4_4 : Fin 2 → Memref sig .tc .vmem S2560x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true, false]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S10000 : S_.BroadcastsInDim S10000 (![] : Fin 0 → Fin S10000.rank)
  bcast_S_S160000 : S_.BroadcastsInDim S160000 (![] : Fin 0 → Fin S160000.rank)
  bcast_S160000_S160000x1_0 : S160000.BroadcastsInDim S160000x1 (![0] : Fin 1 → Fin S160000x1.rank)
  bcast_S_S10240 : S_.BroadcastsInDim S10240 (![] : Fin 0 → Fin S10240.rank)
  bcast_S_S1 : S_.BroadcastsInDim S1 (![] : Fin 0 → Fin S1.rank)
  shapeCasts_S10240_S10240x1 : S10240.ShapeCasts S10240x1
  bcast_S_S10240x1 : S_.BroadcastsInDim S10240x1 (![] : Fin 0 → Fin S10240x1.rank)
  concatenates_S160000_S10000_S170000_d0 : Shape.Concatenates [S160000, S10000] S170000 0
  bcast_S_S170000 : S_.BroadcastsInDim S170000 (![] : Fin 0 → Fin S170000.rank)
  bcast_S_S10240x10240 : S_.BroadcastsInDim S10240x10240 (![] : Fin 0 → Fin S10240x10240.rank)
  bcast_S170000_S170000x1_0 : S170000.BroadcastsInDim S170000x1 (![0] : Fin 1 → Fin S170000x1.rank)
  concatenates_S170000x1_S170000x1_S170000x2_d1 : Shape.Concatenates [S170000x1, S170000x1] S170000x2 1
  pads_S10000x512_S10240x512_02400_000 : S10000x512.Pads (![0, 0] : Fin 2 → Nat) ![240, 0] ![0, 0] S10240x512
  h_S_ : 0 < S_.numel
  bitsLt_bf16_f32 : FTy.bits .bf16 < FTy.bits .f32
  bcast_S_S512x128 : S_.BroadcastsInDim S512x128 (![] : Fin 0 → Fin S512x128.rank)
  bcast_S_S1x128 : S_.BroadcastsInDim S1x128 (![] : Fin 0 → Fin S1x128.rank)
  concatenates_S1_S1_S2_d0 : Shape.Concatenates [S1, S1] S2 0
  bcast_S_S1x512 : S_.BroadcastsInDim S1x512 (![] : Fin 0 → Fin S1x512.rank)
  shapeCasts_S512_S1x512 : S512.ShapeCasts S1x512
  inb_S2560x512_S2560x512_0_0 : ∀ a, (![0, 0] : Fin 2 → Nat) a + S2560x512.size a ≤ S2560x512.size a
  h_S2560x512 : 0 < S2560x512.numel
  shapeCasts_S2560x512_S2560x512 : S2560x512.ShapeCasts S2560x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2560x1_S2560x1_0_0 : ∀ a, (![0, 0] : Fin 2 → Nat) a + S2560x1.size a ≤ S2560x1.size a
  h_S2560x1 : 0 < S2560x1.numel
  shapeCasts_S2560x1_S2560x1 : S2560x1.ShapeCasts S2560x1
  broadcasts_S2560x1_S2560x512 : S2560x1.Broadcasts S2560x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2560x512 : S1x512.Broadcasts S2560x512
  packedbf16_S2560x512_S2560x512_0_0 : (Rect.unit (s := S2560x512) ![0, 0] S2560x512.size inb_S2560x512_S2560x512_0_0).PackedRows (EltTy.packing .bf16)
  inb_S2560x1280_S2560x1280_0_0 : ∀ a, (![0, 0] : Fin 2 → Nat) a + S2560x1280.size a ≤ S2560x1280.size a
  h_S2560x1280 : 0 < S2560x1280.numel
  shapeCasts_S2560x1280_S2560x1280 : S2560x1280.ShapeCasts S2560x1280
  inb_S1280x512_S1280x512_0_0 : ∀ a, (![0, 0] : Fin 2 → Nat) a + S1280x512.size a ≤ S1280x512.size a
  h_S1280x512 : 0 < S1280x512.numel
  shapeCasts_S1280x512_S1280x512 : S1280x512.ShapeCasts S1280x512
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S2560x1_S2560x128 : S2560x1.Broadcasts S2560x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2560x128 : S1x128.Broadcasts S2560x128
  slices_S10240x128_S10000x16_0_0 : S10240x128.Slices ![0, 0] S10000x16
  scatter_S10000_S160000x1_S160000_n_0_0_1_wf : ScatterDims.WF S10000 S160000x1 S160000 [] [0] [0] 1
  scatter_S10240_S1_S10000_0_n_0_0_wf : ScatterDims.WF S10240 S1 S10000 [0] [] [0] 0
  scatter_S10240x10240_S170000x2_S170000_n_01_01_1_wf : ScatterDims.WF S10240x10240 S170000x2 S170000 [] [0, 1] [0, 1] 1
  scatter_S512x128_S1_S512x16_01_n_1_0_wf : ScatterDims.WF S512x128 S1 S512x16 [0, 1] [] [1] 0
  scatter_S1x128_S2_S16_0_0_01_0_wf : ScatterDims.WF S1x128 S2 S16 [0] [0] [0, 1] 0
  dot_S2560x512_S512x512_S2560x512_1_0_0_1_n_n_wf : DotDims.WF S2560x512 S512x512 S2560x512 [1] [0] [0] [1] [] []
  dot_S2560x1280_S1280x512_S2560x512_1_0_0_1_n_n_wf : DotDims.WF S2560x1280 S1280x512 S2560x512 [1] [0] [0] [1] [] []
  dot_S2560x512_S512x128_S2560x128_1_0_0_1_n_n_wf : DotDims.WF S2560x512 S512x128 S2560x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x512.size a ≤ S10240x512.size a
  hwx0_0 : ∀ i : grid0.Coords, EltTy.bits .bf16 = 32 ∨ (Rect.block (s := S10240x512) S2560x512.size (cc0_transform_0 i) (hinb0_0 i)).WholeWords (EltTy.packing .bf16)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2560x1.size a ≤ S10240x1.size a
  hwx0_3 : ∀ i : grid0.Coords, EltTy.bits .f32 = 32 ∨ (Rect.block (s := S10240x1) S2560x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2560x512.size a ≤ S10240x512.size a
  hwx0_4 : ∀ i : grid0.Coords, EltTy.bits .bf16 = 32 ∨ (Rect.block (s := S10240x512) S2560x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2560x1280.size a ≤ S10240x10240.size a
  hwx1_0 : ∀ i : grid1.Coords, EltTy.bits .bf16 = 32 ∨ (Rect.block (s := S10240x10240) S2560x1280.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x512.size a ≤ S10240x512.size a
  hwx1_1 : ∀ i : grid1.Coords, EltTy.bits .bf16 = 32 ∨ (Rect.block (s := S10240x512) S1280x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2560x1.size a ≤ S10240x1.size a
  hwx1_2 : ∀ i : grid1.Coords, EltTy.bits .f32 = 32 ∨ (Rect.block (s := S10240x1) S2560x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2560x512.size a ≤ S10240x512.size a
  hwx1_4 : ∀ i : grid1.Coords, EltTy.bits .bf16 = 32 ∨ (Rect.block (s := S10240x512) S2560x512.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2560x512.size a ≤ S10240x512.size a
  hwx2_0 : ∀ i : grid2.Coords, EltTy.bits .bf16 = 32 ∨ (Rect.block (s := S10240x512) S2560x512.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .bf16 = 32 ∨ (Rect.block (s := S512x512) S512x512.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2560x1.size a ≤ S10240x1.size a
  hwx2_3 : ∀ i : grid2.Coords, EltTy.bits .f32 = 32 ∨ (Rect.block (s := S10240x1) S2560x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2560x512.size a ≤ S10240x512.size a
  hwx2_4 : ∀ i : grid2.Coords, EltTy.bits .bf16 = 32 ∨ (Rect.block (s := S10240x512) S2560x512.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2560x1280.size a ≤ S10240x10240.size a
  hwx3_0 : ∀ i : grid3.Coords, EltTy.bits .bf16 = 32 ∨ (Rect.block (s := S10240x10240) S2560x1280.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1280x512.size a ≤ S10240x512.size a
  hwx3_1 : ∀ i : grid3.Coords, EltTy.bits .bf16 = 32 ∨ (Rect.block (s := S10240x512) S1280x512.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2560x1.size a ≤ S10240x1.size a
  hwx3_2 : ∀ i : grid3.Coords, EltTy.bits .f32 = 32 ∨ (Rect.block (s := S10240x1) S2560x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x512.size a
  hwx3_3 : ∀ i : grid3.Coords, EltTy.bits .f32 = 32 ∨ (Rect.block (s := S1x512) S1x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2560x512.size a ≤ S10240x512.size a
  hwx3_4 : ∀ i : grid3.Coords, EltTy.bits .bf16 = 32 ∨ (Rect.block (s := S10240x512) S2560x512.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2560x512.size a ≤ S10240x512.size a
  hwx4_0 : ∀ i : grid4.Coords, EltTy.bits .bf16 = 32 ∨ (Rect.block (s := S10240x512) S2560x512.size (cc4_transform_0 i) (hinb4_0 i)).WholeWords (EltTy.packing .bf16)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S512x128.size a ≤ S512x128.size a
  hwx4_1 : ∀ i : grid4.Coords, EltTy.bits .bf16 = 32 ∨ (Rect.block (s := S512x128) S512x128.size (cc4_transform_1 i) (hinb4_1 i)).WholeWords (EltTy.packing .bf16)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2560x1.size a ≤ S10240x1.size a
  hwx4_3 : ∀ i : grid4.Coords, EltTy.bits .f32 = 32 ∨ (Rect.block (s := S10240x1) S2560x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2560x128.size a ≤ S10240x128.size a
  hwx4_4 : ∀ i : grid4.Coords, EltTy.bits .f32 = 32 ∨ (Rect.block (s := S10240x128) S2560x128.size (cc4_transform_4 i) (hinb4_4 i)).WholeWords (EltTy.packing .f32)

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def scatter_S10240_S1_S10000_0_n_0_0 : ScatterDims S10240 S1 S10000 where
  updateWindowDims := [0]
  insertedWindowDims := []
  scatterDimsToOperandDims := [0]
  indexVectorDim := 0
  wf := scatter_S10240_S1_S10000_0_n_0_0_wf
def scatter_S10240x10240_S170000x2_S170000_n_01_01_1 : ScatterDims S10240x10240 S170000x2 S170000 where
  updateWindowDims := []
  insertedWindowDims := [0, 1]
  scatterDimsToOperandDims := [0, 1]
  indexVectorDim := 1
  wf := scatter_S10240x10240_S170000x2_S170000_n_01_01_1_wf
def scatter_S512x128_S1_S512x16_01_n_1_0 : ScatterDims S512x128 S1 S512x16 where
  updateWindowDims := [0, 1]
  insertedWindowDims := []
  scatterDimsToOperandDims := [1]
  indexVectorDim := 0
  wf := scatter_S512x128_S1_S512x16_01_n_1_0_wf
def scatter_S1x128_S2_S16_0_0_01_0 : ScatterDims S1x128 S2 S16 where
  updateWindowDims := [0]
  insertedWindowDims := [0]
  scatterDimsToOperandDims := [0, 1]
  indexVectorDim := 0
  wf := scatter_S1x128_S2_S16_0_0_01_0_wf
def dot_S2560x512_S512x512_S2560x512_1_0_0_1_n_n : DotDims S2560x512 S512x512 S2560x512 where
  lhsContracting := [1]
  rhsContracting := [0]
  lhsNonContracting := [0]
  rhsNonContracting := [1]
  lhsBatch := []
  rhsBatch := []
  wf := dot_S2560x512_S512x512_S2560x512_1_0_0_1_n_n_wf
def dot_S2560x1280_S1280x512_S2560x512_1_0_0_1_n_n : DotDims S2560x1280 S1280x512 S2560x512 where
  lhsContracting := [1]
  rhsContracting := [0]
  lhsNonContracting := [0]
  rhsNonContracting := [1]
  lhsBatch := []
  rhsBatch := []
  wf := dot_S2560x1280_S1280x512_S2560x512_1_0_0_1_n_n_wf
def dot_S2560x512_S512x128_S2560x128_1_0_0_1_n_n : DotDims S2560x512 S512x128 S2560x128 where
  lhsContracting := [1]
  rhsContracting := [0]
  lhsNonContracting := [0]
  rhsNonContracting := [1]
  lhsBatch := []
  rhsBatch := []
  wf := dot_S2560x512_S512x128_S2560x128_1_0_0_1_n_n_wf

abbrev win0_0 : Pipeline.Window sig grid0 :=
  Pipeline.Window.ofSpec (Memref.whole main_v42) S2560x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S512x512.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v54) S1x512.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S2560x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v57) S2560x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v40) S2560x1280.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S1280x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2560x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S2560x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v58) S2560x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S512x512.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x512.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S2560x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v59) S2560x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v40) S2560x1280.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1280x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v19) S2560x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v56) S1x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S2560x512.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v60) S2560x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v48) S512x128.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_v53) S1x128.size cc4_transform_2 reads4_2 false false 1 stage4_2 sem4_2
    hrank4 hreads4_2 hinb4_2 nbuf4_2 (Memref.isWhole_whole _) hwx4_2 hstage4_2

abbrev win4_3 : Pipeline.Window sig grid4 :=
  Pipeline.Window.ofSpec (Memref.whole main_v20) S2560x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v61) S2560x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S10000x512 : Shape := ⟨2, ![10000, 512]⟩
abbrev S2x160000 : Shape := ⟨2, ![2, 160000]⟩
abbrev S512x512 : Shape := ⟨2, ![512, 512]⟩
abbrev S512 : Shape := ⟨1, ![512]⟩
abbrev S512x16 : Shape := ⟨2, ![512, 16]⟩
abbrev S16 : Shape := ⟨1, ![16]⟩
abbrev S1x160000 : Shape := ⟨2, ![1, 160000]⟩
abbrev S160000 : Shape := ⟨1, ![160000]⟩
abbrev S_ : Shape := ⟨0, ![]⟩
abbrev S10000 : Shape := ⟨1, ![10000]⟩
abbrev S160000x1 : Shape := ⟨2, ![160000, 1]⟩
abbrev S160000x512 : Shape := ⟨2, ![160000, 512]⟩
abbrev S10000x1 : Shape := ⟨2, ![10000, 1]⟩
abbrev S1x512 : Shape := ⟨2, ![1, 512]⟩
abbrev S10000x16 : Shape := ⟨2, ![10000, 16]⟩
abbrev S1x16 : Shape := ⟨2, ![1, 16]⟩

abbrev nBuf : Space → Nat
  | .hbm => 148
  | .vmem => 0
  | .smem => 0
  | _ => 0

abbrev hbmTy0_0 (i : Nat) : BufTy := match i % 128 with
  | 0 => ⟨S10000x512, .f32⟩
  | 1 => ⟨S2x160000, .i32⟩
  | 2 => ⟨S512x512, .f32⟩
  | 3 => ⟨S512, .f32⟩
  | 4 => ⟨S512x512, .f32⟩
  | 5 => ⟨S512, .f32⟩
  | 6 => ⟨S512x16, .f32⟩
  | 7 => ⟨S16, .f32⟩
  | 8 => ⟨S1x160000, .i32⟩
  | 9 => ⟨S160000, .i32⟩
  | 10 => ⟨S1x160000, .i32⟩
  | 11 => ⟨S160000, .i32⟩
  | 12 => ⟨S10000x512, .f32⟩
  | 13 => ⟨S_, .f32⟩
  | 14 => ⟨S10000, .f32⟩
  | 15 => ⟨S_, .i32⟩
  | 16 => ⟨S160000, .i32⟩
  | 17 => ⟨S160000, .i1⟩
  | 18 => ⟨S_, .i32⟩
  | 19 => ⟨S160000, .i32⟩
  | 20 => ⟨S160000, .i32⟩
  | 21 => ⟨S160000, .i32⟩
  | 22 => ⟨S160000x1, .i32⟩
  | 23 => ⟨S_, .f32⟩
  | 24 => ⟨S160000, .f32⟩
  | 25 => ⟨S10000, .f32⟩
  | 26 => ⟨S_, .f32⟩
  | 27 => ⟨S10000, .f32⟩
  | 28 => ⟨S10000, .f32⟩
  | 29 => ⟨S10000, .f32⟩
  | 30 => ⟨S_, .i32⟩
  | 31 => ⟨S160000, .i32⟩
  | 32 => ⟨S160000, .i1⟩
  | 33 => ⟨S_, .i32⟩
  | 34 => ⟨S160000, .i32⟩
  | 35 => ⟨S160000, .i32⟩
  | 36 => ⟨S160000, .i32⟩
  | 37 => ⟨S160000x1, .i32⟩
  | 38 => ⟨S160000, .f32⟩
  | 39 => ⟨S_, .i32⟩
  | 40 => ⟨S160000, .i32⟩
  | 41 => ⟨S160000, .i1⟩
  | 42 => ⟨S_, .i32⟩
  | 43 => ⟨S160000, .i32⟩
  | 44 => ⟨S160000, .i32⟩
  | 45 => ⟨S160000, .i32⟩
  | 46 => ⟨S160000x1, .i32⟩
  | 47 => ⟨S160000, .f32⟩
  | 48 => ⟨S160000, .f32⟩
  | 49 => ⟨S160000x1, .f32⟩
  | 50 => ⟨S_, .i32⟩
  | 51 => ⟨S160000, .i32⟩
  | 52 => ⟨S160000, .i1⟩
  | 53 => ⟨S_, .i32⟩
  | 54 => ⟨S160000, .i32⟩
  | 55 => ⟨S160000, .i32⟩
  | 56 => ⟨S160000, .i32⟩
  | 57 => ⟨S160000x1, .i32⟩
  | 58 => ⟨S160000x512, .f32⟩
  | 59 => ⟨S160000x512, .f32⟩
  | 60 => ⟨S160000x512, .f32⟩
  | 61 => ⟨S_, .f32⟩
  | 62 => ⟨S10000x512, .f32⟩
  | 63 => ⟨S160000x1, .i32⟩
  | 64 => ⟨S10000x512, .f32⟩
  | 65 => ⟨S10000, .f32⟩
  | 66 => ⟨S10000x1, .f32⟩
  | 67 => ⟨S10000x512, .f32⟩
  | 68 => ⟨S10000x512, .f32⟩
  | 69 => ⟨S10000x512, .f32⟩
  | 70 => ⟨S1x512, .f32⟩
  | 71 => ⟨S10000x512, .f32⟩
  | 72 => ⟨S10000x512, .f32⟩
  | 73 => ⟨S_, .f32⟩
  | 74 => ⟨S10000x512, .f32⟩
  | 75 => ⟨S10000x512, .f32⟩
  | 76 => ⟨S1x160000, .i32⟩
  | 77 => ⟨S160000, .i32⟩
  | 78 => ⟨S1x160000, .i32⟩
  | 79 => ⟨S160000, .i32⟩
  | 80 => ⟨S10000x512, .f32⟩
  | 81 => ⟨S_, .f32⟩
  | 82 => ⟨S10000, .f32⟩
  | 83 => ⟨S_, .i32⟩
  | 84 => ⟨S160000, .i32⟩
  | 85 => ⟨S160000, .i1⟩
  | 86 => ⟨S_, .i32⟩
  | 87 => ⟨S160000, .i32⟩
  | 88 => ⟨S160000, .i32⟩
  | 89 => ⟨S160000, .i32⟩
  | 90 => ⟨S160000x1, .i32⟩
  | 91 => ⟨S_, .f32⟩
  | 92 => ⟨S160000, .f32⟩
  | 93 => ⟨S10000, .f32⟩
  | 94 => ⟨S_, .f32⟩
  | 95 => ⟨S10000, .f32⟩
  | 96 => ⟨S10000, .f32⟩
  | 97 => ⟨S10000, .f32⟩
  | 98 => ⟨S_, .i32⟩
  | 99 => ⟨S160000, .i32⟩
  | 100 => ⟨S160000, .i1⟩
  | 101 => ⟨S_, .i32⟩
  | 102 => ⟨S160000, .i32⟩
  | 103 => ⟨S160000, .i32⟩
  | 104 => ⟨S160000, .i32⟩
  | 105 => ⟨S160000x1, .i32⟩
  | 106 => ⟨S160000, .f32⟩
  | 107 => ⟨S_, .i32⟩
  | 108 => ⟨S160000, .i32⟩
  | 109 => ⟨S160000, .i1⟩
  | 110 => ⟨S_, .i32⟩
  | 111 => ⟨S160000, .i32⟩
  | 112 => ⟨S160000, .i32⟩
  | 113 => ⟨S160000, .i32⟩
  | 114 => ⟨S160000x1, .i32⟩
  | 115 => ⟨S160000, .f32⟩
  | 116 => ⟨S160000, .f32⟩
  | 117 => ⟨S160000x1, .f32⟩
  | 118 => ⟨S_, .i32⟩
  | 119 => ⟨S160000, .i32⟩
  | 120 => ⟨S160000, .i1⟩
  | 121 => ⟨S_, .i32⟩
  | 122 => ⟨S160000, .i32⟩
  | 123 => ⟨S160000, .i32⟩
  | 124 => ⟨S160000, .i32⟩
  | 125 => ⟨S160000x1, .i32⟩
  | 126 => ⟨S160000x512, .f32⟩
  | 127 => ⟨S160000x512, .f32⟩
  | _ => ⟨S10000x512, .f32⟩

abbrev hbmTy0_1 (i : Nat) : BufTy := match i % 128 with
  | 0 => ⟨S160000x512, .f32⟩
  | 1 => ⟨S_, .f32⟩
  | 2 => ⟨S10000x512, .f32⟩
  | 3 => ⟨S160000x1, .i32⟩
  | 4 => ⟨S10000x512, .f32⟩
  | 5 => ⟨S10000, .f32⟩
  | 6 => ⟨S10000x1, .f32⟩
  | 7 => ⟨S10000x512, .f32⟩
  | 8 => ⟨S10000x512, .f32⟩
  | 9 => ⟨S10000x512, .f32⟩
  | 10 => ⟨S1x512, .f32⟩
  | 11 => ⟨S10000x512, .f32⟩
  | 12 => ⟨S10000x512, .f32⟩
  | 13 => ⟨S_, .f32⟩
  | 14 => ⟨S10000x512, .f32⟩
  | 15 => ⟨S10000x512, .f32⟩
  | 16 => ⟨S10000x16, .f32⟩
  | 17 => ⟨S1x16, .f32⟩
  | 18 => ⟨S10000x16, .f32⟩
  | 19 => ⟨S10000x16, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call0_cst : Ref sig .tc := ⟨.hbm, 73, rfl⟩
abbrev main_call0_v0 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_c_11 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_cst_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_15 : Ref sig .tc := ⟨.hbm, 98, rfl⟩
abbrev main_v71 : Ref sig .tc := ⟨.hbm, 99, rfl⟩
abbrev main_v72 : Ref sig .tc := ⟨.hbm, 100, rfl⟩
abbrev main_c_16 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_17 : Ref sig .tc := ⟨.hbm, 107, rfl⟩
abbrev main_v78 : Ref sig .tc := ⟨.hbm, 108, rfl⟩
abbrev main_v79 : Ref sig .tc := ⟨.hbm, 109, rfl⟩
abbrev main_c_18 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_c_19 : Ref sig .tc := ⟨.hbm, 118, rfl⟩
abbrev main_v87 : Ref sig .tc := ⟨.hbm, 119, rfl⟩
abbrev main_v88 : Ref sig .tc := ⟨.hbm, 120, rfl⟩
abbrev main_c_20 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_21 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_call1_cst : Ref sig .tc := ⟨.hbm, 141, rfl⟩
abbrev main_call1_v0 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S10000 : S_.BroadcastsInDim S10000 (![] : Fin 0 → Fin S10000.rank)
  bcast_S_S160000 : S_.BroadcastsInDim S160000 (![] : Fin 0 → Fin S160000.rank)
  bcast_S160000_S160000x1_0 : S160000.BroadcastsInDim S160000x1 (![0] : Fin 1 → Fin S160000x1.rank)
  bcast_S160000x1_S160000x512_0_1 : S160000x1.BroadcastsInDim S160000x512 (![0, 1] : Fin 2 → Fin S160000x512.rank)
  bcast_S_S10000x512 : S_.BroadcastsInDim S10000x512 (![] : Fin 0 → Fin S10000x512.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  dot_S10000x512_S512x512_S10000x512_1_0_0_1_n_n_wf : DotDims.WF S10000x512 S512x512 S10000x512 [1] [0] [0] [1] [] []
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S10000x512_S512x16_S10000x16_1_0_0_1_n_n_wf : DotDims.WF S10000x512 S512x16 S10000x16 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S10000x512_S512x16_S10000x16_1_0_0_1_n_n : DotDims S10000x512 S512x16 S10000x16 where
  lhsContracting := [1]
  rhsContracting := [0]
  lhsNonContracting := [0]
  rhsNonContracting := [1]
  lhsBatch := []
  rhsBatch := []
  wf := dot_S10000x512_S512x16_S10000x16_1_0_0_1_n_n_wf

class Facts : Prop extends Facts₀ where

variable [Facts]
-- ==== Proof.RegionLib.lean ====
import proofs.«417597_j20066087207444_2_alg».proof.Proof.Gen.KernelIdeal.Launch
import proofs.«417597_j20066087207444_2_alg».proof.Proof.Gen.KernelIdeal.Skeleton
import proofs.«417597_j20066087207444_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

theorem zeroOffs : (![0, 0] : Fin 2 → Nat) = fun _ => 0 := funext fun a => by fin_cases a <;> rfl

-- A load of a whole buffer reads its contents.
theorem readAtWhole {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

-- A store to a whole buffer, made last, leaves its payload.
theorem readLastWhole {κ : Kind} {sp : Space} {S : Shape} {e : EltTy} (v : View sig κ sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w :=
  (View.read_writes_eq_canon v f _ fun y => ⟨_, List.mem_cons.mpr (.inl rfl), View.mem_set_unit_zero h inb y⟩).trans
    (View.canon_cons_unit_zero h inb w L)

-- The region's entry invariant holds the scratch buffer b at some contents, beside the rest.
theorem PhiA_split {gr W : ℕ} (spec : Fin W → Pipeline.WinSpec sig gr) (c : Dev nD) (b : Ref sig .tc)
    (h : (Pipeline.scopedRest spec c : sProp 𝕄) = iprop((∃ f : Buf (Elt F) ((c : Thread nD τ).loc b), ((c : Thread nD τ).loc b) ↦{fullShare} f)
      ∗ Pipeline.scopedRestBut spec c [b])) :
    (Pipeline.ΦA spec c : sProp 𝕄) ⊣⊢ iprop((∃ d, owns (c : Thread nD τ) (Memref.whole b) fullShare d)
      ∗ Pipeline.scopedRestBut spec c [b] ∗ ∃ r, prngReg c r) := by
  unfold Pipeline.ΦA; rw [h]; simp only [owns_whole]; exact sep_assoc

/-- A region invariant that carries an accumulator: A before the first point, afterwards P at what the point before left, beside R. -/
def accPhi {X : Type} {N : ℕ} (A : sProp 𝕄) (P : X → sProp 𝕄) (R : sProp 𝕄) (acc : Fin N → X) : (n : ℕ) → n ≤ N → sProp 𝕄
  | 0, _ => A
  | n + 1, hn => iprop(P (acc ⟨n, hn⟩) ∗ R)

-- At any position the accumulator is held at some contents.
theorem accPhi_open {X : Type} {N : ℕ} {A : sProp 𝕄} {P : X → sProp 𝕄} {R : sProp 𝕄} (acc : Fin N → X) (h : A ⊢ iprop((∃ d, P d) ∗ R)) :
    ∀ (n : ℕ) (hn : n ≤ N), accPhi A P R acc n hn ⊢ iprop((∃ d, P d) ∗ R)
  | 0, _ => h
  | _ + 1, _ => sep_mono_left (exists_intro _)

-- The contraction's first step, as the body tests it.
abbrev isFirst (i : grid0.Coords) : Prop :=
  Scalar.cmpi .ne (Scalar.extui (Scalar.cmpi .eq (BitVec.ofNat 32 (i 2).val) 0#32)) 0#32 = 1#1

/-- The dense body's triple where the contraction both starts and ends: inputs kept, accumulator left at acc a w, output at out (acc a w) scale bias. -/
def DenseTriple {Sw Sb So : Shape} {eo : EltTy}
    (kern : grid0.Coords → (a3 : Memref sig .tc .vmem S2560x512 .bf16) → a3.IsWhole → (a4 : Memref sig .tc .vmem Sw .bf16) → a4.IsWhole →
      (a5 : Memref sig .tc .vmem Sb .f32) → a5.IsWhole → (a6 : Memref sig .tc .vmem S2560x1 .f32) → a6.IsWhole →
      (a7 : Memref sig .tc .vmem So eo) → a7.IsWhole → (a8 : Memref sig .tc .vmem So .f32) → a8.IsWhole →
      Prog (TpuEff nD τ sig (Elt F) Λ₀ .tc) PUnit)
    (last : grid0.Coords → BitVec 1) (acc : Vec F S2560x512 .bf16 → Vec F Sw .bf16 → Vec F So .f32)
    (out : Vec F So .f32 → Vec F S2560x1 .f32 → Vec F Sb .f32 → Vec F So eo) : Prop :=
  ∀ (c : Dev nD) i a3 h3 a4 h4 a5 h5 a6 h6 a7 h7 a8 h8, isFirst i → last i = 1#1 → ∀ xa xw xb xs (K : PUnit → sProp 𝕄),
    iprop(owns c.tc a3 fullShare xa ∗ owns c.tc a4 fullShare xw ∗ owns c.tc a5 fullShare xb ∗ owns c.tc a6 fullShare xs
        ∗ (∃ d, owns c.tc a7 fullShare d) ∗ (∃ d, owns c.tc a8 fullShare d)
        ∗ (owns c.tc a3 fullShare xa ∗ owns c.tc a4 fullShare xw ∗ owns c.tc a5 fullShare xb ∗ owns c.tc a6 fullShare xs
            ∗ owns c.tc a7 fullShare (out (acc xa xw) xs xb) ∗ owns c.tc a8 fullShare (acc xa xw) -∗ K ⟨⟩))
      ⊢ wp frame (wpE (defs₀ (F := F)) Variants.none c none) Set.univ (kern i a3 h3 a4 h4 a5 h5 a6 h6 a7 h7 a8 h8) K

-- From the body's triple: the inputs are handed over at xa, xw, xb, xs and A yields the accumulator at some contents beside R.
theorem dense_body {Sw Sb So : Shape} {eo : EltTy} {kern last acc out} (hk : DenseTriple (F := F) (Sw := Sw) (Sb := Sb) (So := So) (eo := eo) kern last acc out)
    (c : Dev nD) {i : grid0.Coords} (hi : isFirst i) (hl : last i = 1#1) {a3 h3 a4 h4 a5 h5 a6 h6 a7 h7 a8 h8}
    {D3 D4 D5 D6 D7 : Type} {X3 : D3 → Vec F S2560x512 .bf16} {X4 : D4 → Vec F Sw .bf16} {X5 : D5 → Vec F Sb .f32}
    {X6 : D6 → Vec F S2560x1 .f32} {X7 : D7 → Vec F So eo} {xa xw xb xs}
    (e3 : ∀ d, X3 d = xa) (e4 : ∀ d, X4 d = xw) (e5 : ∀ d, X5 d = xb) (e6 : ∀ d, X6 d = xs)
    {A R O : sProp 𝕄} (hA : A ⊢ iprop((∃ d, owns c.tc a8 fullShare d) ∗ R)) :
    iprop(A ∗ O ∗ (∃ d, owns c.tc a3 fullShare (X3 d)) ∗ (∃ d, owns c.tc a4 fullShare (X4 d)) ∗ (∃ d, owns c.tc a5 fullShare (X5 d))
        ∗ (∃ d, owns c.tc a6 fullShare (X6 d)) ∗ ∃ d, owns c.tc a7 fullShare (X7 d))
      ⊢ wp frame (wpE (defs₀ (F := F)) Variants.none c none) Set.univ (kern i a3 h3 a4 h4 a5 h5 a6 h6 a7 h7 a8 h8) fun _ =>
        iprop((owns c.tc a8 fullShare (acc xa xw) ∗ R) ∗ O ∗ owns c.tc a3 fullShare xa ∗ owns c.tc a4 fullShare xw
          ∗ owns c.tc a5 fullShare xb ∗ owns c.tc a6 fullShare xs ∗ owns c.tc a7 fullShare (out (acc xa xw) xs xb)) := by
  simp only [e3, e4, e5, e6]
  refine (sep_mono_left hA).trans ?_
  iintro ⟨⟨HS, HR⟩, Ho, ⟨%d0, H0⟩, ⟨%d1, H1⟩, ⟨%d2, H2⟩, ⟨%d3, H3⟩, ⟨%d4, H4⟩⟩
  iapply (hk c i a3 h3 a4 h4 a5 h5 a6 h6 a7 h7 a8 h8 hi hl xa xw xb xs _)
  iframe H0 H1 H2 H3 HS
  isplitl [H4]; · iexists _; iexact H4
  iintro ⟨H0, H1, H2, H3, H4, HS⟩
  iframe

end Cert.KernelIdeal.Hand

end
-- ==== Proof.Region0.lean ====
import proofs.«417597_j20066087207444_2_alg».proof.Proof.RegionLib

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ablk0 (c : Dev nD) (t : Fin cfg0.N) : Vec F S2560x512 .bf16 := iblk0 V c 0 t
abbrev wblk0 (c : Dev nD) (t : Fin cfg0.N) : Vec F S512x512 .bf16 := iblk0 V c 1 t
abbrev bblk0 (c : Dev nD) (t : Fin cfg0.N) : Vec F S1x512 .f32 := iblk0 V c 2 t
abbrev sblk0 (c : Dev nD) (t : Fin cfg0.N) : Vec F S2560x1 .f32 := iblk0 V c 3 t

/-- The accumulator after point t: zeros plus the product of the point's row block with the weights. -/
def accAt0 (c : Dev nD) (t : Fin cfg0.N) : Vec F S2560x512 .f32 := k0_pay2 (k0_pay1 (F := F)) (ablk0 V c t) (wblk0 V c t)

/-- The output block after point t: the accumulator scaled row by row, the bias row added. -/
def outAt0 (c : Dev nD) (t : Fin cfg0.N) : Vec F S2560x512 .bf16 := k0_pay3 (accAt0 V c t) (sblk0 V c t) (bblk0 V c t)

/-- Inputs are left at their blocks, the output at outAt0; the accumulator is carried at what the point before left. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outAt0 V c t
  Φ t := accPhi (Pipeline.ΦA spec0 c) (owns c.tc (Memref.whole cc0_scratch0 : Memref sig .tc .vmem S2560x512 .f32) fullShare)
    iprop(Pipeline.scopedRestBut spec0 c [cc0_scratch0] ∗ ∃ r, prngReg c r) (accAt0 V c) t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) : (dat0 V c).after 4 t = outAt0 V c t := by dsimp only [dat0]

-- The contraction axis has one step, so every point both clears the accumulator and stores the output block.
theorem pts0 : ∀ t : Fin cfg0.N,
    isFirst (grid0.coords t) ∧ k0_cond2 (grid0.coords t) = 1#1 ∧ idle0 4 (grid0.coords t) = false := by decide +kernel

set_option maxHeartbeats 4000000 in
-- The body on whole buffers at such a point leaves the accumulator at 0 + a·w and the output at scale ⊙ (0 + a·w) + bias.
theorem sound_kernel0 : DenseTriple (F := F) cc0__dense_matmul_kernel k0_cond2 (k0_pay2 k0_pay1) k0_pay3 := by
  intro c i a3 h3 a4 h4 a5 h5 a6 h6 a7 h7 a8 h8 hfirst hlast xa xw xb xs K
  unfold owns
  iintro ⟨⟨%f3, %e3, H3⟩, ⟨%f4, %e4, H4⟩, ⟨%f5, %e5, H5⟩, ⟨%f6, %e6, H6⟩, ⟨%d7, %f7, -, H7⟩, ⟨%d8, %f8, -, H8⟩, Hk⟩
  subst e3 e4 e5 e6
  sl_unfold [cc0__dense_matmul_kernel]
  sl_exec (disch := first | exact hfirst | exact hlast)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (readLastWhole _ _ zeroOffs _ _ _).trans ?_
    sl_unfold_run_names
    simp only [View.readCov_cons_toLoadRect, readAtWhole a3.view f3 zeroOffs, readAtWhole a4.view f4 zeroOffs,
      readAtWhole a5.view f5 zeroOffs, readAtWhole a6.view f6 zeroOffs]
  iexists _; isplitr
  swap; · iexact H8
  ipureintro
  refine (readLastWhole _ _ zeroOffs _ _ _).trans ?_
  sl_unfold_run_names
  simp only [View.readCov_cons_toLoadRect, readAtWhole a3.view f3 zeroOffs, readAtWhole a4.view f4 zeroOffs]

-- Before the body at any point an input's contents are its block there: the body leaves inputs unchanged.
theorem found0 (c : Dev nD) (t : Fin cfg0.N) : ∀ (w : Fin cfg0.W) (hw : w.val < 4 := by decide) d,
    (dat0 V c).before w t d = (dat0 V c).fetched w t d
  | ⟨0, _⟩, _ | ⟨1, _⟩, _ | ⟨2, _⟩, _ | ⟨3, _⟩, _ => (dat0 V c).before_in_eq_fetched _ rfl (fun _ => rfl) (fun _ _ _ => rfl) (fun _ => rfl) t

-- The inputs' buffers hold their blocks and the invariant yields the accumulator at some contents, so the body's triple applies.
theorem body_obligation0 (c : Dev nD) : BodyObligation (dat0 (F := F) V c) (defs₀ (F := F)) Variants.none () Set.univ := fun t => by
  rw [bigSep_W0, bigSep_W0]
  simp only [(pts0 t).2.2]
  show _ ⊢ wp _ _ _ (bodyAt0 t) _
  exact dense_body sound_kernel0 c (pts0 t).1 (pts0 t).2.1 (xa := ablk0 V c t) (xw := wblk0 V c t) (xb := bblk0 V c t) (xs := sblk0 V c t)
    (found0 V c t 0) (found0 V c t 1) (found0 V c t 2) (found0 V c t 3) (accPhi_open (accAt0 V c) (PhiA_split spec0 c cc0_scratch0 (scopedRest0_split c)).1 t.val (Nat.le_of_lt t.isLt))

theorem hin0 (c : Dev nD) : (Pipeline.ΦA spec0 c : sProp 𝕄) ⊢ (dat0 V c).Φ 0 := .of_eq rfl

-- After the last point the accumulator's contents are forgotten.
theorem hout0 (c : Dev nD) : (dat0 V c).Φ (Fin.last cfg0.N) ⊢ (Pipeline.ΦA spec0 c : sProp 𝕄) :=
  (accPhi_open (accAt0 V c) (PhiA_split spec0 c cc0_scratch0 (scopedRest0_split c)).1 cfg0.N (Nat.le_refl _)).trans (PhiA_split spec0 c cc0_scratch0 (scopedRest0_split c)).2

end Cert.KernelIdeal.Hand

end
-- ==== Proof.Region1.lean ====
import proofs.«417597_j20066087207444_2_alg».proof.Proof.RegionLib

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev firstAt1 (i : grid1.Coords) : Prop :=
  (Scalar.cmpi .ne (Scalar.extui (Scalar.cmpi .eq (BitVec.ofNat 32 (i 1).val) 0#32)) 0#32) = 1#1

abbrev lastAt1 (i : grid1.Coords) : Prop := k1_cond2 i = 1#1

theorem hfirstAt1 : ∀ t : Fin cfg1.N, firstAt1 (grid1.coords t) ↔ t.val % 8 = 0 :=
  (by decide +kernel : ∀ t : Fin grid1.N, firstAt1 (grid1.coords t) ↔ t.val % 8 = 0)

theorem hlastAt1 : ∀ t : Fin cfg1.N, lastAt1 (grid1.coords t) ↔ t.val % 8 = 7 :=
  (by decide +kernel : ∀ t : Fin grid1.N, lastAt1 (grid1.coords t) ↔ t.val % 8 = 7)

-- A load of the whole of a buffer held at the contents that read X reads X.
theorem readUnread {sp : Space} {S : Shape} {e : EltTy} {m : Memref sig .tc sp S e} (h : m.IsWhole) (X : S.Idx → Elt F e)
    {off : Fin S.rank → Nat} (ho : off = fun _ => 0) (inb : ∀ a, off a + S.size a ≤ S.size a) :
    m.view.readAt (Elt F) (Rect.unit off S.size inb).toLoadRect (h.unread X) = X :=
  (readAtWhole _ _ ho inb).trans (h.read_unread X)

-- A whole buffer at the contents that read X is owned at X.
theorem ownsUnread {sp : Space} {S : Shape} {e : EltTy} {m : Memref sig .tc sp S e} (h : m.IsWhole) (c : Dev nD) (X : S.Idx → Elt F e) :
    (m.view.loc (c : Thread nD τ) ↦[m.view.set]{fullShare} h.unread X : sProp 𝕄)
      ⊢ iprop(∃ f, ⌜m.view.read (Elt F) f = X⌝ ∗ (m.view.loc (c : Thread nD τ) ↦[m.view.set]{fullShare} f)) := by
  iintro H; iexists _; isplitr; · ipureintro; exact h.read_unread _
  iexact H

abbrev AggKernel (F : FTy → Type) [FloatOps F] :=
  (i : grid1.Coords) → (arg2 : Memref sig .tc .vmem S2560x1280 .bf16) → arg2.IsWhole → (arg3 : Memref sig .tc .vmem S1280x512 .bf16) → arg3.IsWhole →
    (arg4 : Memref sig .tc .vmem S2560x1 .f32) → arg4.IsWhole → (arg5 : Memref sig .tc .vmem S1x512 .f32) → arg5.IsWhole →
    (arg6 : Memref sig .tc .vmem S2560x512 .bf16) → arg6.IsWhole → (arg7 : Memref sig .tc .vmem S2560x512 .f32) → arg7.IsWhole →
    Prog (TpuEff nD τ sig (Elt F) Λ₀ .tc) PUnit

-- At a point that is not last the accumulator, found at a, ends at z a plus the block product: z a the zeros at a first point, a at a later one.
abbrev AggAcc (kern : AggKernel F) (p2 : Vec F S2560x512 .f32 → Vec F S2560x1280 .bf16 → Vec F S1280x512 .bf16 → FVec F S2560x512 .f32)
    (cond : grid1.Coords → Prop) (z : Vec F S2560x512 .f32 → Vec F S2560x512 .f32) : Prop :=
  ∀ (c : Dev nD) (E : Set ℕ) (i : grid1.Coords)
    (arg2 : Memref sig .tc .vmem S2560x1280 .bf16) (harg2 : arg2.IsWhole) (arg3 : Memref sig .tc .vmem S1280x512 .bf16) (harg3 : arg3.IsWhole)
    (arg4 : Memref sig .tc .vmem S2560x1 .f32) (harg4 : arg4.IsWhole) (arg5 : Memref sig .tc .vmem S1x512 .f32) (harg5 : arg5.IsWhole)
    (arg6 : Memref sig .tc .vmem S2560x512 .bf16) (harg6 : arg6.IsWhole) (arg7 : Memref sig .tc .vmem S2560x512 .f32) (harg7 : arg7.IsWhole)
    (hf : cond i) (hl : ¬lastAt1 i)
    (x0 : Vec F S2560x1280 .bf16) (x1 : Vec F S1280x512 .bf16) (a : Vec F S2560x512 .f32) (K : PUnit → sProp 𝕄),
    iprop(owns (c : Thread nD τ) arg2 fullShare x0 ∗ owns (c : Thread nD τ) arg3 fullShare x1 ∗ owns (c : Thread nD τ) arg7 fullShare a
        ∗ (iprop(owns (c : Thread nD τ) arg2 fullShare x0 ∗ owns (c : Thread nD τ) arg3 fullShare x1
            ∗ owns (c : Thread nD τ) arg7 fullShare (p2 (z a) x0 x1)) -∗ K ⟨⟩))
      ⊢ wp frame (wpE (defs₀ (F := F)) Variants.none c none) E (kern i arg2 harg2 arg3 harg3 arg4 harg4 arg5 harg5 arg6 harg6 arg7 harg7) K

-- At a last point the accumulator does the same, and the output block is formed from it, the row scale and the bias.
abbrev AggLast (kern : AggKernel F) (p2 : Vec F S2560x512 .f32 → Vec F S2560x1280 .bf16 → Vec F S1280x512 .bf16 → FVec F S2560x512 .f32) (p3 : Vec F S2560x512 .f32 → Vec F S2560x1 .f32 → Vec F S1x512 .f32 → FVec F S2560x512 .bf16) : Prop :=
  ∀ (c : Dev nD) (E : Set ℕ) (i : grid1.Coords)
    (arg2 : Memref sig .tc .vmem S2560x1280 .bf16) (harg2 : arg2.IsWhole) (arg3 : Memref sig .tc .vmem S1280x512 .bf16) (harg3 : arg3.IsWhole)
    (arg4 : Memref sig .tc .vmem S2560x1 .f32) (harg4 : arg4.IsWhole) (arg5 : Memref sig .tc .vmem S1x512 .f32) (harg5 : arg5.IsWhole)
    (arg6 : Memref sig .tc .vmem S2560x512 .bf16) (harg6 : arg6.IsWhole) (arg7 : Memref sig .tc .vmem S2560x512 .f32) (harg7 : arg7.IsWhole)
    (hf : ¬firstAt1 i) (hl : lastAt1 i)
    (x0 : Vec F S2560x1280 .bf16) (x1 : Vec F S1280x512 .bf16) (x2 : Vec F S2560x1 .f32) (x3 : Vec F S1x512 .f32)
    (a : Vec F S2560x512 .f32) (K : PUnit → sProp 𝕄),
    iprop(owns (c : Thread nD τ) arg2 fullShare x0 ∗ owns (c : Thread nD τ) arg3 fullShare x1
        ∗ owns (c : Thread nD τ) arg4 fullShare x2 ∗ owns (c : Thread nD τ) arg5 fullShare x3
        ∗ (∃ y, owns (c : Thread nD τ) arg6 fullShare y) ∗ owns (c : Thread nD τ) arg7 fullShare a
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (p3 (p2 a x0 x1) x2 x3)
            ∗ owns (c : Thread nD τ) arg7 fullShare (p2 a x0 x1)) -∗ K ⟨⟩))
      ⊢ wp frame (wpE (defs₀ (F := F)) Variants.none c none) E (kern i arg2 harg2 arg3 harg3 arg4 harg4 arg5 harg5 arg6 harg6 arg7 harg7) K

theorem agg1_first : AggAcc (F := F) cc1__agg_kernel k1_pay2 firstAt1 fun _ => k1_pay1 := fun c E i arg2 harg2 arg3 harg3 arg4 harg4 arg5 harg5 arg6 harg6 arg7 harg7 hf hl x0 x1 a K => by
  simp only [cc1__agg_kernel_eq_skeleton]; unfold cc1__agg_kernel_skel
  unfold owns
  iintro ⟨⟨%f0, %hf0, H0⟩, ⟨%f1, %hf1, H1⟩, ⟨%fa, -, HA⟩, Hk⟩
  obtain rfl := harg2.eq_unread hf0; obtain rfl := harg3.eq_unread hf1
  sl_exec (disch := first | exact hf | exact hl)
  sl_step
  iapply Hk
  isplitl [H0]; · iapply ownsUnread harg2; iexact H0
  isplitl [H1]; · iapply ownsUnread harg3; iexact H1
  iexists _; isplitr
  swap; · iexact HA
  ipureintro
  sl_unfold_words
  rw [readLastWhole _ _ zeroOffs]
  simp only [View.readCov_unit_zero (S := S2560x512) _ zeroOffs, readUnread harg2 _ zeroOffs, readUnread harg3 _ zeroOffs]

theorem agg1_next : AggAcc (F := F) cc1__agg_kernel k1_pay2 (fun i => ¬firstAt1 i) fun a => a := fun c E i arg2 harg2 arg3 harg3 arg4 harg4 arg5 harg5 arg6 harg6 arg7 harg7 hf hl x0 x1 a K => by
  simp only [cc1__agg_kernel_eq_skeleton]; unfold cc1__agg_kernel_skel
  unfold owns
  iintro ⟨⟨%f0, %hf0, H0⟩, ⟨%f1, %hf1, H1⟩, ⟨%fa, %hfa, HA⟩, Hk⟩
  obtain rfl := harg2.eq_unread hf0; obtain rfl := harg3.eq_unread hf1; obtain rfl := harg7.eq_unread hfa
  sl_exec (disch := first | exact hf | exact hl)
  sl_step
  iapply Hk
  isplitl [H0]; · iapply ownsUnread harg2; iexact H0
  isplitl [H1]; · iapply ownsUnread harg3; iexact H1
  iexists _; isplitr
  swap; · iexact HA
  ipureintro
  sl_unfold_words
  rw [readLastWhole _ _ zeroOffs]
  simp only [readUnread harg2 _ zeroOffs, readUnread harg3 _ zeroOffs, readUnread harg7 _ zeroOffs]

theorem agg1_last : AggLast (F := F) cc1__agg_kernel k1_pay2 k1_pay3 := fun c E i arg2 harg2 arg3 harg3 arg4 harg4 arg5 harg5 arg6 harg6 arg7 harg7 hf hl x0 x1 x2 x3 a K => by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%y, %fy, -, H4⟩, ⟨%fa, %hfa, HA⟩, Hk⟩
  obtain rfl := harg2.eq_unread hf0; obtain rfl := harg3.eq_unread hf1; obtain rfl := harg4.eq_unread hf2
  obtain rfl := harg5.eq_unread hf3; obtain rfl := harg7.eq_unread hfa
  sl_exec (disch := first | exact hf | exact hl)
  sl_step
  iapply Hk
  isplitl [H0]; · iapply ownsUnread harg2; iexact H0
  isplitl [H1]; · iapply ownsUnread harg3; iexact H1
  isplitl [H2]; · iapply ownsUnread harg4; iexact H2
  isplitl [H3]; · iapply ownsUnread harg5; iexact H3
  isplitl [H4]
  · iexists _; isplitr
    swap; · iexact H4
    ipureintro
    sl_unfold_words
    rw [readLastWhole _ _ zeroOffs]
    simp only [View.readCov_unit_zero (S := S2560x512) _ zeroOffs, readUnread harg2 _ zeroOffs, readUnread harg3 _ zeroOffs,
      readUnread harg4 _ zeroOffs, readUnread harg5 _ zeroOffs, readUnread harg7 _ zeroOffs]
  iexists _; isplitr
  swap; · iexact HA
  ipureintro
  sl_unfold_words
  rw [readLastWhole _ _ zeroOffs]
  simp only [readUnread harg2 _ zeroOffs, readUnread harg3 _ zeroOffs, readUnread harg7 _ zeroOffs]

-- The second aggregation kernel is the same function, so it has the same triples.
theorem agg3_first : AggAcc (F := F) cc3__agg_kernel k3_pay2 firstAt1 fun _ => k3_pay1 := agg1_first
theorem agg3_next : AggAcc (F := F) cc3__agg_kernel k3_pay2 (fun i => ¬firstAt1 i) fun a => a := agg1_next
theorem agg3_last : AggLast (F := F) cc3__agg_kernel k3_pay2 k3_pay3 := agg1_last

variable (V : (c : Dev nD) → (b : Ref sig .tc) → Buf (Elt F) ((c : Thread nD τ).loc b))

theorem idleAt1_4 : ∀ t : Fin cfg1.N, ¬lastAt1 (grid1.coords t) → cfg1.idle 4 (grid1.coords t) = true := by decide +kernel

theorem noFlush1_4 (t : Fin cfg1.N) (h : ¬lastAt1 (grid1.coords t)) : (cfg1.win 4).flush t = false :=
  Bool.eq_false_iff.mpr fun hf => h ((hlastAt1 t).mpr ((flush1_4 t).mp hf))

theorem liveAt1_4 : ∀ t : Fin cfg1.N, lastAt1 (grid1.coords t) → cfg1.idle 4 (grid1.coords t) = false := by decide +kernel

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cblk1 (c : Dev nD) (t : Fin cfg1.N) : Vec F S2560x1280 .bf16 := iblk1 V c 0 t

abbrev hblk1 (c : Dev nD) (t : Fin cfg1.N) : Vec F S1280x512 .bf16 := iblk1 V c 1 t

abbrev dblk1 (c : Dev nD) (t : Fin cfg1.N) : Vec F S2560x1 .f32 := iblk1 V c 2 t

abbrev bblk1 (c : Dev nD) (t : Fin cfg1.N) : Vec F S1x512 .f32 := iblk1 V c 3 t

-- The accumulator after point n: started afresh at the points ≡ 0 (mod 8), otherwise added to.
def accAt1 (c : Dev nD) : (n : ℕ) → n < cfg1.N → Vec F S2560x512 .f32
  | 0, hn => k1_pay2 (k1_pay1 (F := F)) (cblk1 V c ⟨0, hn⟩) (hblk1 V c ⟨0, hn⟩)
  | n + 1, hn => if (n + 1) % 8 = 0 then k1_pay2 (k1_pay1 (F := F)) (cblk1 V c ⟨n + 1, hn⟩) (hblk1 V c ⟨n + 1, hn⟩)
                 else k1_pay2 (accAt1 c n (Nat.lt_of_succ_lt hn)) (cblk1 V c ⟨n + 1, hn⟩) (hblk1 V c ⟨n + 1, hn⟩)

def outAt1 (c : Dev nD) (t : Fin cfg1.N) : Vec F S2560x512 .bf16 := k1_pay3 (accAt1 V c t.val t.isLt) (dblk1 V c t) (bblk1 V c t)

theorem accAt1_first (c : Dev nD) (t : Fin cfg1.N) (h : t.val % 8 = 0) :
    accAt1 V c t.val t.isLt = k1_pay2 (k1_pay1 (F := F)) (cblk1 V c t) (hblk1 V c t) := by
  obtain ⟨n, hn⟩ := t
  cases n with
  | zero => rfl
  | succ n => exact (if_pos h).trans rfl

theorem accAt1_next (c : Dev nD) (t : Fin cfg1.N) (h : ¬t.val % 8 = 0) :
    accAt1 V c t.val t.isLt
      = k1_pay2 (accAt1 V c (t.val - 1) (Nat.lt_of_le_of_lt (Nat.sub_le _ _) t.isLt)) (cblk1 V c t) (hblk1 V c t) := by
  obtain ⟨n, hn⟩ := t
  cases n with
  | zero => exact absurd (Nat.zero_mod _) h
  | succ n => exact (if_neg h).trans rfl

abbrev held1 (c : Dev nD) (a : Vec F S2560x512 .f32) : sProp 𝕄 :=
  iprop(owns (c : Thread nD τ) (Memref.whole cc1_scratch0 : Memref sig .tc .vmem S2560x512 .f32) fullShare a ∗ Pipeline.scopedRestBut spec1 c [cc1_scratch0] ∗ (∃ r, prngReg c r))

-- The invariant: before point 0 what the region is entered with, later the accumulator at what the point before left.
def Phi1 (c : Dev nD) : (n : ℕ) → n ≤ cfg1.N → sProp 𝕄 :=
  accPhi (Pipeline.ΦA spec1 c) (fun a => owns (c : Thread nD τ) (Memref.whole cc1_scratch0 : Memref sig .tc .vmem S2560x512 .f32) fullShare a)
    iprop(Pipeline.scopedRestBut spec1 c [cc1_scratch0] ∗ (∃ r, prngReg c r)) fun t : Fin cfg1.N => accAt1 V c t.val t.isLt

theorem Phi1_succ (c : Dev nD) (n : ℕ) (hn : n < cfg1.N) :
    Phi1 V c (n + 1) hn = held1 c (accAt1 V c n hn) := rfl

theorem Phi1_pos (c : Dev nD) (n : ℕ) (h : n ≤ cfg1.N) (hz : n ≠ 0) :
    Phi1 V c n h = held1 c (accAt1 V c (n - 1) (by omega)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt1 V c t := by dsimp only [dat1]

theorem Phi1_some (c : Dev nD) (n : ℕ) (h : n ≤ cfg1.N) : Phi1 V c n h ⊢
    iprop((∃ a, owns (c : Thread nD τ) (Memref.whole cc1_scratch0 : Memref sig .tc .vmem S2560x512 .f32) fullShare a) ∗ Pipeline.scopedRestBut spec1 c [cc1_scratch0] ∗ (∃ r, prngReg c r)) :=
  accPhi_open _ (PhiA_split spec1 c cc1_scratch0 (scopedRest1_split c)).1 n h

theorem leaves1 (c : Dev nD) (w : Fin cfg1.W) (t : Fin cfg1.N) (h : cfg1.idle w (grid1.coords t) = false) :
    (dat1 V c).leavesExact w t = owns (c : Thread nD τ) ((cfg1.win w).stage (cfg1.slots t w)) fullShare ((dat1 V c).after w t) := by
  unfold Dat.leavesExact; rw [h]

-- Every input window's buffer holds the window's block at every point.
theorem before1 (c : Dev nD) (t : Fin cfg1.N) :
    (∀ d, (dat1 V c).before 0 t d = iblk1 V c 0 t) ∧ (∀ d, (dat1 V c).before 1 t d = iblk1 V c 1 t)
      ∧ (∀ d, (dat1 V c).before 2 t d = iblk1 V c 2 t) ∧ (∀ d, (dat1 V c).before 3 t d = iblk1 V c 3 t) := by
  refine ⟨?_, ?_, ?_, ?_⟩ <;> exact fun d =>
    ((dat1 V c).before_in_eq_fetched _ rfl (fun _ => rfl) (fun _ _ _ => rfl)
      (fun t => by dsimp only [dat1]; unfold Dat.blockOf iblk1; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [(before1 V c t).1, (before1 V c t).2.1, (before1 V c t).2.2.1, (before1 V c t).2.2.2]
  rw [show (dat1 V c).owesAt () t.succ = (dat1 V c).owesAt () t.castSucc from rfl]
  rw [show (dat1 V c).Φ t.succ = Phi1 V c (t.val + 1) t.isLt from rfl, Phi1_succ,
    show (dat1 V c).Φ t.castSucc = Phi1 V c t.val (Nat.le_of_lt t.isLt) from rfl]
  unfold held1
  rw [leaves1 V c 0 t rfl, leaves1 V c 1 t rfl, leaves1 V c 2 t rfl, leaves1 V c 3 t rfl, after1_0, after1_1, after1_2, after1_3]
  by_cases h0 : t.val % 8 = 0
  · have h7 : ¬t.val % 8 = 7 := by omega
    have hf : firstAt1 (grid1.coords t) := (hfirstAt1 t).mpr h0
    have hl : ¬lastAt1 (grid1.coords t) := fun h => h7 ((hlastAt1 t).mp h)
    rw [Dat.leavesExact_idle (dat1 V c) 4 t (idleAt1_4 t hl) (noFlush1_4 t hl), accAt1_first V c t h0]
    refine (sep_mono_left (Phi1_some V c _ _)).trans ?_
    iintro ⟨⟨⟨%a, HS⟩, HR, Hg⟩, Ho, ⟨%d0, H0⟩, ⟨%d1, H1⟩, ⟨%d2, H2⟩, ⟨%d3, H3⟩, H4⟩
    iapply (agg1_first c Set.univ (grid1.coords t) _ _ _ _ _ _ _ _ _ _ _ _ hf hl (cblk1 V c t) (hblk1 V c t) a _)
    iframe H0 H1 HS
    iintro ⟨H0, H1, HS⟩
    iframe
  · have hf : ¬firstAt1 (grid1.coords t) := fun h => h0 ((hfirstAt1 t).mp h)
    rw [Phi1_pos V c _ _ (fun e => h0 (by rw [e]))]
    unfold held1
    by_cases h7 : t.val % 8 = 7
    · have hl : lastAt1 (grid1.coords t) := (hlastAt1 t).mpr h7
      rw [leaves1 V c 4 t (liveAt1_4 t hl), after1_4]
      unfold outAt1
      rw [accAt1_next V c t h0]
      iintro ⟨⟨HS, HR, Hg⟩, Ho, ⟨%d0, H0⟩, ⟨%d1, H1⟩, ⟨%d2, H2⟩, ⟨%d3, H3⟩, ⟨%d4, H4⟩⟩
      iapply (agg1_last c Set.univ (grid1.coords t) _ _ _ _ _ _ _ _ _ _ _ _ hf hl (cblk1 V c t) (hblk1 V c t) (dblk1 V c t) (bblk1 V c t) _ _)
      iframe H0 H1 H2 H3 HS
      isplitl [H4]; · iexists _; iexact H4
      iintro ⟨H0, H1, H2, H3, H4, HS⟩
      iframe
    · have hl : ¬lastAt1 (grid1.coords t) := fun h => h7 ((hlastAt1 t).mp h)
      rw [Dat.leavesExact_idle (dat1 V c) 4 t (idleAt1_4 t hl) (noFlush1_4 t hl), accAt1_next V c t h0]
      iintro ⟨⟨HS, HR, Hg⟩, Ho, ⟨%d0, H0⟩, ⟨%d1, H1⟩, ⟨%d2, H2⟩, ⟨%d3, H3⟩, H4⟩
      iapply (agg1_next c Set.univ (grid1.coords t) _ _ _ _ _ _ _ _ _ _ _ _ hf hl (cblk1 V c t) (hblk1 V c t) _ _)
      iframe H0 H1 HS
      iintro ⟨H0, H1, HS⟩
      iframe

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := .rfl

theorem hout1 (c : Dev nD) : (dat1 V c).Φ (Fin.last cfg1.N) ⊢ (Pipeline.ΦA spec1 c : sProp 𝕄) :=
  (Phi1_some V c cfg1.N (Nat.le_refl _)).trans (PhiA_split spec1 c cc1_scratch0 (scopedRest1_split c)).2

end Cert.KernelIdeal.Hand

end
-- ==== Proof.Region2.lean ====
import proofs.«417597_j20066087207444_2_alg».proof.Proof.Region0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev ablk2 (c : Dev nD) (t : Fin cfg2.N) : Vec F S2560x512 .bf16 := iblk2 V c 0 t
abbrev wblk2 (c : Dev nD) (t : Fin cfg2.N) : Vec F S512x512 .bf16 := iblk2 V c 1 t
abbrev bblk2 (c : Dev nD) (t : Fin cfg2.N) : Vec F S1x512 .f32 := iblk2 V c 2 t
abbrev sblk2 (c : Dev nD) (t : Fin cfg2.N) : Vec F S2560x1 .f32 := iblk2 V c 3 t

/-- The accumulator after point t: zeros plus the product of the point's row block with the weights. -/
def accAt2 (c : Dev nD) (t : Fin cfg2.N) : Vec F S2560x512 .f32 := k2_pay2 (k2_pay1 (F := F)) (ablk2 V c t) (wblk2 V c t)

/-- The output block after point t: the accumulator scaled row by row, the bias row added. -/
def outAt2 (c : Dev nD) (t : Fin cfg2.N) : Vec F S2560x512 .bf16 := k2_pay3 (accAt2 V c t) (sblk2 V c t) (bblk2 V c t)

/-- Inputs are left at their blocks, the output at outAt2; the accumulator is carried at what the point before left. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outAt2 V c t
  Φ t := accPhi (Pipeline.ΦA spec2 c) (owns c.tc (Memref.whole cc2_scratch0 : Memref sig .tc .vmem S2560x512 .f32) fullShare)
    iprop(Pipeline.scopedRestBut spec2 c [cc2_scratch0] ∗ ∃ r, prngReg c r) (accAt2 V c) t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) : (dat2 V c).after 4 t = outAt2 V c t := by dsimp only [dat2]

-- The contraction axis has one step, so every point both clears the accumulator and stores the output block.
theorem pts2 : ∀ t : Fin cfg2.N,
    isFirst (grid2.coords t) ∧ k2_cond2 (grid2.coords t) = 1#1 ∧ idle2 4 (grid2.coords t) = false := by decide +kernel

-- This region's body is region 0's.
theorem sound_kernel2 : DenseTriple (F := F) cc2__dense_matmul_kernel k2_cond2 (k2_pay2 k2_pay1) k2_pay3 := sound_kernel0

-- Before the body at any point an input's contents are its block there: the body leaves inputs unchanged.
theorem found2 (c : Dev nD) (t : Fin cfg2.N) : ∀ (w : Fin cfg2.W) (hw : w.val < 4 := by decide) d,
    (dat2 V c).before w t d = (dat2 V c).fetched w t d
  | ⟨0, _⟩, _ | ⟨1, _⟩, _ | ⟨2, _⟩, _ | ⟨3, _⟩, _ => (dat2 V c).before_in_eq_fetched _ rfl (fun _ => rfl) (fun _ _ _ => rfl) (fun _ => rfl) t

-- The inputs' buffers hold their blocks and the invariant yields the accumulator at some contents, so the body's triple applies.
theorem body_obligation2 (c : Dev nD) : BodyObligation (dat2 (F := F) V c) (defs₀ (F := F)) Variants.none () Set.univ := fun t => by
  rw [bigSep_W2, bigSep_W2]
  simp only [(pts2 t).2.2]
  show _ ⊢ wp _ _ _ (bodyAt2 t) _
  exact dense_body sound_kernel2 c (pts2 t).1 (pts2 t).2.1 (xa := ablk2 V c t) (xw := wblk2 V c t) (xb := bblk2 V c t) (xs := sblk2 V c t)
    (found2 V c t 0) (found2 V c t 1) (found2 V c t 2) (found2 V c t 3) (accPhi_open (accAt2 V c) (PhiA_split spec2 c cc2_scratch0 (scopedRest2_split c)).1 t.val (Nat.le_of_lt t.isLt))

theorem hin2 (c : Dev nD) : (Pipeline.ΦA spec2 c : sProp 𝕄) ⊢ (dat2 V c).Φ 0 := .of_eq rfl

-- After the last point the accumulator's contents are forgotten.
theorem hout2 (c : Dev nD) : (dat2 V c).Φ (Fin.last cfg2.N) ⊢ (Pipeline.ΦA spec2 c : sProp 𝕄) :=
  (accPhi_open (accAt2 V c) (PhiA_split spec2 c cc2_scratch0 (scopedRest2_split c)).1 cfg2.N (Nat.le_refl _)).trans (PhiA_split spec2 c cc2_scratch0 (scopedRest2_split c)).2

end Cert.KernelIdeal.Hand

end
-- ==== Proof.Region3.lean ====
import proofs.«417597_j20066087207444_2_alg».proof.Proof.Region1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem idleAt3_4 : ∀ t : Fin cfg3.N, ¬lastAt1 (grid3.coords t) → cfg3.idle 4 (grid3.coords t) = true := by decide +kernel

theorem noFlush3_4 (t : Fin cfg3.N) (h : ¬lastAt1 (grid3.coords t)) : (cfg3.win 4).flush t = false :=
  Bool.eq_false_iff.mpr fun hf => h ((hlastAt1 t).mpr ((flush3_4 t).mp hf))

theorem liveAt3_4 : ∀ t : Fin cfg3.N, lastAt1 (grid3.coords t) → cfg3.idle 4 (grid3.coords t) = false := by decide +kernel

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cblk3 (c : Dev nD) (t : Fin cfg3.N) : Vec F S2560x1280 .bf16 := iblk3 V c 0 t

abbrev hblk3 (c : Dev nD) (t : Fin cfg3.N) : Vec F S1280x512 .bf16 := iblk3 V c 1 t

abbrev dblk3 (c : Dev nD) (t : Fin cfg3.N) : Vec F S2560x1 .f32 := iblk3 V c 2 t

abbrev bblk3 (c : Dev nD) (t : Fin cfg3.N) : Vec F S1x512 .f32 := iblk3 V c 3 t

-- The accumulator after point n: started afresh at the points ≡ 0 (mod 8), otherwise added to.
def accAt3 (c : Dev nD) : (n : ℕ) → n < cfg3.N → Vec F S2560x512 .f32
  | 0, hn => k3_pay2 (k3_pay1 (F := F)) (cblk3 V c ⟨0, hn⟩) (hblk3 V c ⟨0, hn⟩)
  | n + 1, hn => if (n + 1) % 8 = 0 then k3_pay2 (k3_pay1 (F := F)) (cblk3 V c ⟨n + 1, hn⟩) (hblk3 V c ⟨n + 1, hn⟩)
                 else k3_pay2 (accAt3 c n (Nat.lt_of_succ_lt hn)) (cblk3 V c ⟨n + 1, hn⟩) (hblk3 V c ⟨n + 1, hn⟩)

def outAt3 (c : Dev nD) (t : Fin cfg3.N) : Vec F S2560x512 .bf16 := k3_pay3 (accAt3 V c t.val t.isLt) (dblk3 V c t) (bblk3 V c t)

theorem accAt3_first (c : Dev nD) (t : Fin cfg3.N) (h : t.val % 8 = 0) :
    accAt3 V c t.val t.isLt = k3_pay2 (k3_pay1 (F := F)) (cblk3 V c t) (hblk3 V c t) := by
  obtain ⟨n, hn⟩ := t
  cases n with
  | zero => rfl
  | succ n => exact (if_pos h).trans rfl

theorem accAt3_next (c : Dev nD) (t : Fin cfg3.N) (h : ¬t.val % 8 = 0) :
    accAt3 V c t.val t.isLt
      = k3_pay2 (accAt3 V c (t.val - 1) (Nat.lt_of_le_of_lt (Nat.sub_le _ _) t.isLt)) (cblk3 V c t) (hblk3 V c t) := by
  obtain ⟨n, hn⟩ := t
  cases n with
  | zero => exact absurd (Nat.zero_mod _) h
  | succ n => exact (if_neg h).trans rfl

abbrev held3 (c : Dev nD) (a : Vec F S2560x512 .f32) : sProp 𝕄 :=
  iprop(owns (c : Thread nD τ) (Memref.whole cc3_scratch0 : Memref sig .tc .vmem S2560x512 .f32) fullShare a ∗ Pipeline.scopedRestBut spec3 c [cc3_scratch0] ∗ (∃ r, prngReg c r))

-- The invariant: before point 0 what the region is entered with, later the accumulator at what the point before left.
def Phi3 (c : Dev nD) : (n : ℕ) → n ≤ cfg3.N → sProp 𝕄 :=
  accPhi (Pipeline.ΦA spec3 c) (fun a => owns (c : Thread nD τ) (Memref.whole cc3_scratch0 : Memref sig .tc .vmem S2560x512 .f32) fullShare a)
    iprop(Pipeline.scopedRestBut spec3 c [cc3_scratch0] ∗ (∃ r, prngReg c r)) fun t : Fin cfg3.N => accAt3 V c t.val t.isLt

theorem Phi3_succ (c : Dev nD) (n : ℕ) (hn : n < cfg3.N) :
    Phi3 V c (n + 1) hn = held3 c (accAt3 V c n hn) := rfl

theorem Phi3_pos (c : Dev nD) (n : ℕ) (h : n ≤ cfg3.N) (hz : n ≠ 0) :
    Phi3 V c n h = held3 c (accAt3 V c (n - 1) (by omega)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => outAt3 V c t
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = outAt3 V c t := by dsimp only [dat3]

theorem Phi3_some (c : Dev nD) (n : ℕ) (h : n ≤ cfg3.N) : Phi3 V c n h ⊢
    iprop((∃ a, owns (c : Thread nD τ) (Memref.whole cc3_scratch0 : Memref sig .tc .vmem S2560x512 .f32) fullShare a) ∗ Pipeline.scopedRestBut spec3 c [cc3_scratch0] ∗ (∃ r, prngReg c r)) :=
  accPhi_open _ (PhiA_split spec3 c cc3_scratch0 (scopedRest3_split c)).1 n h

theorem leaves3 (c : Dev nD) (w : Fin cfg3.W) (t : Fin cfg3.N) (h : cfg3.idle w (grid3.coords t) = false) :
    (dat3 V c).leavesExact w t = owns (c : Thread nD τ) ((cfg3.win w).stage (cfg3.slots t w)) fullShare ((dat3 V c).after w t) := by
  unfold Dat.leavesExact; rw [h]

-- Every input window's buffer holds the window's block at every point.
theorem before3 (c : Dev nD) (t : Fin cfg3.N) :
    (∀ d, (dat3 V c).before 0 t d = iblk3 V c 0 t) ∧ (∀ d, (dat3 V c).before 1 t d = iblk3 V c 1 t)
      ∧ (∀ d, (dat3 V c).before 2 t d = iblk3 V c 2 t) ∧ (∀ d, (dat3 V c).before 3 t d = iblk3 V c 3 t) := by
  refine ⟨?_, ?_, ?_, ?_⟩ <;> exact fun d =>
    ((dat3 V c).before_in_eq_fetched _ rfl (fun _ => rfl) (fun _ _ _ => rfl)
      (fun t => by dsimp only [dat3]; unfold Dat.blockOf iblk3; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [(before3 V c t).1, (before3 V c t).2.1, (before3 V c t).2.2.1, (before3 V c t).2.2.2]
  rw [show (dat3 V c).owesAt () t.succ = (dat3 V c).owesAt () t.castSucc from rfl]
  rw [show (dat3 V c).Φ t.succ = Phi3 V c (t.val + 1) t.isLt from rfl, Phi3_succ,
    show (dat3 V c).Φ t.castSucc = Phi3 V c t.val (Nat.le_of_lt t.isLt) from rfl]
  unfold held3
  rw [leaves3 V c 0 t rfl, leaves3 V c 1 t rfl, leaves3 V c 2 t rfl, leaves3 V c 3 t rfl, after3_0, after3_1, after3_2, after3_3]
  by_cases h0 : t.val % 8 = 0
  · have h7 : ¬t.val % 8 = 7 := by omega
    have hf : firstAt1 (grid3.coords t) := (hfirstAt1 t).mpr h0
    have hl : ¬lastAt1 (grid3.coords t) := fun h => h7 ((hlastAt1 t).mp h)
    rw [Dat.leavesExact_idle (dat3 V c) 4 t (idleAt3_4 t hl) (noFlush3_4 t hl), accAt3_first V c t h0]
    refine (sep_mono_left (Phi3_some V c _ _)).trans ?_
    iintro ⟨⟨⟨%a, HS⟩, HR, Hg⟩, Ho, ⟨%d0, H0⟩, ⟨%d1, H1⟩, ⟨%d2, H2⟩, ⟨%d3, H3⟩, H4⟩
    iapply (agg3_first c Set.univ (grid3.coords t) _ _ _ _ _ _ _ _ _ _ _ _ hf hl (cblk3 V c t) (hblk3 V c t) a _)
    iframe H0 H1 HS
    iintro ⟨H0, H1, HS⟩
    iframe
  · have hf : ¬firstAt1 (grid3.coords t) := fun h => h0 ((hfirstAt1 t).mp h)
    rw [Phi3_pos V c _ _ (fun e => h0 (by rw [e]))]
    unfold held3
    by_cases h7 : t.val % 8 = 7
    · have hl : lastAt1 (grid3.coords t) := (hlastAt1 t).mpr h7
      rw [leaves3 V c 4 t (liveAt3_4 t hl), after3_4]
      unfold outAt3
      rw [accAt3_next V c t h0]
      iintro ⟨⟨HS, HR, Hg⟩, Ho, ⟨%d0, H0⟩, ⟨%d1, H1⟩, ⟨%d2, H2⟩, ⟨%d3, H3⟩, ⟨%d4, H4⟩⟩
      iapply (agg3_last c Set.univ (grid3.coords t) _ _ _ _ _ _ _ _ _ _ _ _ hf hl (cblk3 V c t) (hblk3 V c t) (dblk3 V c t) (bblk3 V c t) _ _)
      iframe H0 H1 H2 H3 HS
      isplitl [H4]; · iexists _; iexact H4
      iintro ⟨H0, H1, H2, H3, H4, HS⟩
      iframe
    · have hl : ¬lastAt1 (grid3.coords t) := fun h => h7 ((hlastAt1 t).mp h)
      rw [Dat.leavesExact_idle (dat3 V c) 4 t (idleAt3_4 t hl) (noFlush3_4 t hl), accAt3_next V c t h0]
      iintro ⟨⟨HS, HR, Hg⟩, Ho, ⟨%d0, H0⟩, ⟨%d1, H1⟩, ⟨%d2, H2⟩, ⟨%d3, H3⟩, H4⟩
      iapply (agg3_next c Set.univ (grid3.coords t) _ _ _ _ _ _ _ _ _ _ _ _ hf hl (cblk3 V c t) (hblk3 V c t) _ _)
      iframe H0 H1 HS
      iintro ⟨H0, H1, HS⟩
      iframe

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := .rfl

theorem hout3 (c : Dev nD) : (dat3 V c).Φ (Fin.last cfg3.N) ⊢ (Pipeline.ΦA spec3 c : sProp 𝕄) :=
  (Phi3_some V c cfg3.N (Nat.le_refl _)).trans (PhiA_split spec3 c cc3_scratch0 (scopedRest3_split c)).2

end Cert.KernelIdeal.Hand

end
-- ==== Proof.Region4.lean ====
import proofs.«417597_j20066087207444_2_alg».proof.Proof.RegionLib

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev ablk4 (c : Dev nD) (t : Fin cfg4.N) : Vec F S2560x512 .bf16 := iblk4 V c 0 t
abbrev wblk4 (c : Dev nD) (t : Fin cfg4.N) : Vec F S512x128 .bf16 := iblk4 V c 1 t
abbrev bblk4 (c : Dev nD) (t : Fin cfg4.N) : Vec F S1x128 .f32 := iblk4 V c 2 t
abbrev sblk4 (c : Dev nD) (t : Fin cfg4.N) : Vec F S2560x1 .f32 := iblk4 V c 3 t

/-- The accumulator after point t: zeros plus the product of the point's row block with the weights. -/
def accAt4 (c : Dev nD) (t : Fin cfg4.N) : Vec F S2560x128 .f32 := k4_pay2 (k4_pay1 (F := F)) (ablk4 V c t) (wblk4 V c t)

/-- The output block after point t: the accumulator scaled row by row, the bias row added. -/
def outAt4 (c : Dev nD) (t : Fin cfg4.N) : Vec F S2560x128 .f32 := k4_pay3 (accAt4 V c t) (sblk4 V c t) (bblk4 V c t)

/-- Inputs are left at their blocks, the output at outAt4; the accumulator is carried at what the point before left. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => outAt4 V c t
  Φ t := accPhi (Pipeline.ΦA spec4 c) (owns c.tc (Memref.whole cc4_scratch0 : Memref sig .tc .vmem S2560x128 .f32) fullShare)
    iprop(Pipeline.scopedRestBut spec4 c [cc4_scratch0] ∗ ∃ r, prngReg c r) (accAt4 V c) t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_4 (c : Dev nD) (t : Fin cfg4.N) : (dat4 V c).after 4 t = outAt4 V c t := by dsimp only [dat4]

-- The contraction axis has one step, so every point both clears the accumulator and stores the output block.
theorem pts4 : ∀ t : Fin cfg4.N,
    isFirst (grid4.coords t) ∧ k4_cond2 (grid4.coords t) = 1#1 ∧ idle4 4 (grid4.coords t) = false := by decide +kernel

set_option maxHeartbeats 4000000 in
-- The body on whole buffers at such a point leaves the accumulator at 0 + a·w and the output at scale ⊙ (0 + a·w) + bias.
theorem sound_kernel4 : DenseTriple (F := F) cc4__dense_matmul_kernel k4_cond2 (k4_pay2 k4_pay1) k4_pay3 := by
  intro c i a3 h3 a4 h4 a5 h5 a6 h6 a7 h7 a8 h8 hfirst hlast xa xw xb xs K
  unfold owns
  iintro ⟨⟨%f3, %e3, H3⟩, ⟨%f4, %e4, H4⟩, ⟨%f5, %e5, H5⟩, ⟨%f6, %e6, H6⟩, ⟨%d7, %f7, -, H7⟩, ⟨%d8, %f8, -, H8⟩, Hk⟩
  subst e3 e4 e5 e6
  sl_unfold [cc4__dense_matmul_kernel]
  sl_exec (disch := first | exact hfirst | exact hlast)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (readLastWhole _ _ zeroOffs _ _ _).trans ?_
    sl_unfold_run_names
    simp only [View.readCov_cons_toLoadRect, readAtWhole a3.view f3 zeroOffs, readAtWhole a4.view f4 zeroOffs,
      readAtWhole a5.view f5 zeroOffs, readAtWhole a6.view f6 zeroOffs]
  iexists _; isplitr
  swap; · iexact H8
  ipureintro
  refine (readLastWhole _ _ zeroOffs _ _ _).trans ?_
  sl_unfold_run_names
  simp only [View.readCov_cons_toLoadRect, readAtWhole a3.view f3 zeroOffs, readAtWhole a4.view f4 zeroOffs]

-- Before the body at any point an input's contents are its block there: the body leaves inputs unchanged.
theorem found4 (c : Dev nD) (t : Fin cfg4.N) : ∀ (w : Fin cfg4.W) (hw : w.val < 4 := by decide) d,
    (dat4 V c).before w t d = (dat4 V c).fetched w t d
  | ⟨0, _⟩, _ | ⟨1, _⟩, _ | ⟨2, _⟩, _ | ⟨3, _⟩, _ => (dat4 V c).before_in_eq_fetched _ rfl (fun _ => rfl) (fun _ _ _ => rfl) (fun _ => rfl) t

-- The inputs' buffers hold their blocks and the invariant yields the accumulator at some contents, so the body's triple applies.
theorem body_obligation4 (c : Dev nD) : BodyObligation (dat4 (F := F) V c) (defs₀ (F := F)) Variants.none () Set.univ := fun t => by
  rw [bigSep_W4, bigSep_W4]
  simp only [(pts4 t).2.2]
  show _ ⊢ wp _ _ _ (bodyAt4 t) _
  exact dense_body sound_kernel4 c (pts4 t).1 (pts4 t).2.1 (xa := ablk4 V c t) (xw := wblk4 V c t) (xb := bblk4 V c t) (xs := sblk4 V c t)
    (found4 V c t 0) (found4 V c t 1) (found4 V c t 2) (found4 V c t 3) (accPhi_open (accAt4 V c) (PhiA_split spec4 c cc4_scratch0 (scopedRest4_split c)).1 t.val (Nat.le_of_lt t.isLt))

theorem hin4 (c : Dev nD) : (Pipeline.ΦA spec4 c : sProp 𝕄) ⊢ (dat4 V c).Φ 0 := .of_eq rfl

-- After the last point the accumulator's contents are forgotten.
theorem hout4 (c : Dev nD) : (dat4 V c).Φ (Fin.last cfg4.N) ⊢ (Pipeline.ΦA spec4 c : sProp 𝕄) :=
  (accPhi_open (accAt4 V c) (PhiA_split spec4 c cc4_scratch0 (scopedRest4_split c)).1 cfg4.N (Nat.le_refl _)).trans (PhiA_split spec4 c cc4_scratch0 (scopedRest4_split c)).2

end Cert.KernelIdeal.Hand

end
-- ==== Proof.Fold.lean ====
import proofs.«417597_j20066087207444_2_alg».proof.Proof.Gen.KernelIdeal.Regions
import proofs.«417597_j20066087207444_2_alg».proof.Proof.Region0
import proofs.«417597_j20066087207444_2_alg».proof.Proof.Region1
import proofs.«417597_j20066087207444_2_alg».proof.Proof.Region2
import proofs.«417597_j20066087207444_2_alg».proof.Proof.Region3
import proofs.«417597_j20066087207444_2_alg».proof.Proof.Region4

noncomputable section

namespace Cert.KernelIdeal.Hand

open Idealize.ShloMosaic Idealize.ShloMosaic.TcCoe
open Idealize.SL Idealize.SL.BI
open scoped Idealize.SL.BI
open Idealize.SL.BI.BIBase
open Idealize.ShloMosaic.Pipeline (Dat)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) (c : Dev nD) (b : Ref sig .tc) : Buf (Elt F) ((c : Thread nD τ).loc b) := W c b

abbrev W3 : Dev nD → Valuation τ sig (Elt F) := fun c => V3 m c
abbrev U3 := atTc (W3 m)

-- After a region: its arrays at their final contents, every other buffer as the region found it.
def W4 (c : Dev nD) : Valuation τ sig (Elt F) :=
  Pipeline.withArrays spec0 c (W3 m c) fun w => (dat0 (U3 m) c).arrAt w cfg0.N
abbrev U4 := atTc (W4 m)
theorem W4_arr (c : Dev nD) (w : Fin cfg0.W) :
    W4 m c (Proc.devRef .tc (Pipeline.arrRef spec0 w)) = (dat0 (U3 m) c).arrAt w cfg0.N :=
  Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) :=
  Pipeline.withArrays_of_ne spec0 c _ _ b hb
theorem W4_in (c : Dev nD) (w : Fin cfg0.W) (hw : (cfg0.win w).isOut = false) :
    W4 m c (Proc.devRef .tc (Pipeline.arrRef spec0 w)) = W3 m c (Proc.devRef .tc (Pipeline.arrRef spec0 w)) :=
  (W4_arr m c w).trans (((dat0 (U3 m) c).arrAt_in w hw _).trans (A_eq0 (U3 m) c w))

def W5 (c : Dev nD) : Valuation τ sig (Elt F) :=
  Pipeline.withArrays spec1 c (W4 m c) fun w => (dat1 (U4 m) c).arrAt w cfg1.N
abbrev U5 := atTc (W5 m)
theorem W5_arr (c : Dev nD) (w : Fin cfg1.W) :
    W5 m c (Proc.devRef .tc (Pipeline.arrRef spec1 w)) = (dat1 (U4 m) c).arrAt w cfg1.N :=
  Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) :=
  Pipeline.withArrays_of_ne spec1 c _ _ b hb
theorem W5_in (c : Dev nD) (w : Fin cfg1.W) (hw : (cfg1.win w).isOut = false) :
    W5 m c (Proc.devRef .tc (Pipeline.arrRef spec1 w)) = W4 m c (Proc.devRef .tc (Pipeline.arrRef spec1 w)) :=
  (W5_arr m c w).trans (((dat1 (U4 m) c).arrAt_in w hw _).trans (A_eq1 (U4 m) c w))

def W6 (c : Dev nD) : Valuation τ sig (Elt F) :=
  Pipeline.withArrays spec2 c (W5 m c) fun w => (dat2 (U5 m) c).arrAt w cfg2.N
abbrev U6 := atTc (W6 m)
theorem W6_arr (c : Dev nD) (w : Fin cfg2.W) :
    W6 m c (Proc.devRef .tc (Pipeline.arrRef spec2 w)) = (dat2 (U5 m) c).arrAt w cfg2.N :=
  Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) :=
  Pipeline.withArrays_of_ne spec2 c _ _ b hb
theorem W6_in (c : Dev nD) (w : Fin cfg2.W) (hw : (cfg2.win w).isOut = false) :
    W6 m c (Proc.devRef .tc (Pipeline.arrRef spec2 w)) = W5 m c (Proc.devRef .tc (Pipeline.arrRef spec2 w)) :=
  (W6_arr m c w).trans (((dat2 (U5 m) c).arrAt_in w hw _).trans (A_eq2 (U5 m) c w))

def W7 (c : Dev nD) : Valuation τ sig (Elt F) :=
  Pipeline.withArrays spec3 c (W6 m c) fun w => (dat3 (U6 m) c).arrAt w cfg3.N
abbrev U7 := atTc (W7 m)
theorem W7_arr (c : Dev nD) (w : Fin cfg3.W) :
    W7 m c (Proc.devRef .tc (Pipeline.arrRef spec3 w)) = (dat3 (U6 m) c).arrAt w cfg3.N :=
  Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) :=
  Pipeline.withArrays_of_ne spec3 c _ _ b hb

def W8 (c : Dev nD) : Valuation τ sig (Elt F) :=
  Pipeline.withArrays spec4 c (W7 m c) fun w => (dat4 (U7 m) c).arrAt w cfg4.N
abbrev U8 := atTc (W8 m)
theorem W8_arr (c : Dev nD) (w : Fin cfg4.W) :
    W8 m c (Proc.devRef .tc (Pipeline.arrRef spec4 w)) = (dat4 (U7 m) c).arrAt w cfg4.N :=
  Pipeline.withArrays_arr spec4 launch4.win.arr_inj c _ _ w
theorem W8_of_ne (c : Dev nD) (b : Ref sig .tc) (hb : ∀ w, Pipeline.arrRef spec4 w ≠ b) :
    W8 m c (Proc.devRef .tc b) = W7 m c (Proc.devRef .tc b) :=
  Pipeline.withArrays_of_ne spec4 c _ _ b hb

abbrev W9 : Dev nD → Valuation τ sig (Elt F) := fun c => StableHlo.after hostOps5 (W8 m c)

def pdats : (p : Fin 5) → (c : Dev nD) → Dat τ (Elt F) Unit ℕ (UR sig nD τ) ℕ (Pipeline.pin (pcfgs (F := F)) adm p) c
  | ⟨0, _⟩ => fun c => dat0 (U3 m) c
  | ⟨1, _⟩ => fun c => dat1 (U4 m) c
  | ⟨2, _⟩ => fun c => dat2 (U5 m) c
  | ⟨3, _⟩ => fun c => dat3 (U6 m) c
  | ⟨4, _⟩ => fun c => dat4 (U7 m) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.Seg.lean ====
import proofs.«417597_j20066087207444_2_alg».proof.Proof.Fold

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.ProofMode
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

-- Region p changes its own arrays and nothing else.
set_option backward.isDefEq.respectTransparency.types false in
def regOf (p : Fin 5) (lf : Pipeline.LaunchFacts (nD := nD) (τ := τ) cfgs p) (V : Dev nD → Valuation τ sig (Elt F))
    (hA : ∀ c w, (pdats m p c).A w = V c (Proc.devRef .tc (Pipeline.arrRef (cfgs p).spec w)))
    (hbody : ∀ c, Pipeline.BodyObligation (pdats m p c) (defs₀ (F := F)) 𝒱₀ () Set.univ)
    (hin : ∀ c, (Pipeline.ΦA (cfgs p).spec c : sProp 𝕄) ⊢ (pdats m p c).Φ 0)
    (hout : ∀ c, (pdats m p c).Φ (Fin.last (cfgs p).N) ⊢ (Pipeline.ΦA (cfgs p).spec c : sProp 𝕄))
    (hq : ∀ c w, (pdats m p c).q w = fullShare := by exact fun _ _ => rfl)
    (howed : ∀ c t, (pdats m p c).owed t = 0 := by exact fun _ _ => rfl)
    (hrec : ∀ c, (pdats m p c).recorded 0 = Set.univ := by exact fun _ => rfl) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig)
    (Pipeline.withArrays (cfgs p).spec c (V c) ((pdats m p c).arrAt · (cfgs p).N)) ∗ R c)
  X c := iprop(∃ r, prngReg c r)
  Y c := iprop(∃ r, prngReg c r)
  Z c := Pipeline.unscopedRest (Ix := Unit) (Name := ℕ) (U := UR sig nD τ) (Lvl := ℕ) (cfgs p).spec c (V c ·)
  hentry c := by
    have hsplit := Pipeline.arrays_of_unscopedBufs (p := p) (pcfgs (F := F)) adm (pdats m) lf.win lf.arr_whole c
      ((pdats m p c).share_full (hq c)) (V c ·) (hA c)
    rw [Pipeline.unscopedBufs_held] at hsplit
    unfold Pipeline.Dat.owesAt Pipeline.owesWithin Pipeline.prefHeld
    rw [howed, Pipeline.Dat.bound, hrec, show (Finset.univ : Finset (Fin 0)) = ∅ from rfl, BI.bigSep_empty]
    iintro ⟨⟨Hub, Hp, %W, HO⟩, -⟩
    icases hsplit $$ Hub with ⟨Ha, Hrest⟩
    imodintro
    iframe Ha Hp Hrest
    isplitr; · iempintro
    iexists W; iframe HO
    ipureintro; exact fun _ _ => Or.inl trivial
  hin c := .trans (by unfold Pipeline.ΦA; iintro ⟨Hp, -, Hr⟩; iframe Hp Hr) (hin c)
  hout c := (hout c).trans (by rw [Pipeline.ownSems0_none]; unfold Pipeline.ΦA; iintro ⟨Hr, Hp⟩; iframe Hp Hr; iempintro)
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c)) (V c ·)
      (Pipeline.withArrays (cfgs p).spec c (V c) ((pdats m p c).arrAt · (cfgs p).N) ·) ((pdats m p c).arrAt · (cfgs p).N)
      (fun w => (Pipeline.withArrays_arr _ lf.win.arr_inj c (V c) ((pdats m p c).arrAt · (cfgs p).N) w).symm)
      (fun b hb => Pipeline.withArrays_of_ne _ c (V c) ((pdats m p c).arrAt · (cfgs p).N) b fun w e => hb (Finset.mem_image.mpr ⟨w, Finset.mem_univ _, e⟩))
    rw [Pipeline.unscopedBufs_held] at hjoin
    unfold Pipeline.Dat.owesAt Pipeline.owesWithin
    rw [howed]
    iintro ⟨Ha, ⟨%W, -, HO⟩, HY, Hrest⟩
    imodintro
    isplitl [Ha Hrest]
    · iapply hjoin; iframe Ha Hrest
    isplitl [HY]; · iexact HY
    iexists W; iexact HO

def reg0 := regOf m 0 launch0 (W3 m) (A_eq0 (U3 m)) (body_obligation0 (U3 m)) (hin0 (U3 m)) (hout0 (U3 m))
def reg1 := regOf m 1 launch1 (W4 m) (A_eq1 (U4 m)) (body_obligation1 (U4 m)) (hin1 (U4 m)) (hout1 (U4 m))
def reg2 := regOf m 2 launch2 (W5 m) (A_eq2 (U5 m)) (body_obligation2 (U5 m)) (hin2 (U5 m)) (hout2 (U5 m))
def reg3 := regOf m 3 launch3 (W6 m) (A_eq3 (U6 m)) (body_obligation3 (U6 m)) (hin3 (U6 m)) (hout3 (U6 m))
def reg4 := regOf m 4 launch4 (W7 m) (A_eq4 (U7 m)) (body_obligation4 (U7 m)) (hin4 (U7 m)) (hout4 (U7 m))

end Cert.KernelIdeal.Hand

end
-- ==== Proof.Run.lean ====
import proofs.«417597_j20066087207444_2_alg».proof.Proof.Seg

set_option maxRecDepth 16384

noncomputable section

namespace Cert.KernelIdeal.Hand

open Idealize.ShloMosaic Idealize.ShloMosaic.TcCoe Idealize.ShloMosaic.Tactic
open Idealize.SL Idealize.SL.BI
open scoped Idealize.SL.BI
open Idealize.SL.BI.BIBase Idealize.SL.ProofMode
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev mainSegs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (reg0 m), .region (reg1 m), .region (reg2 m), .region (reg3 m), .region (reg4 m),
    .host (hseg hostOps5 hostOps5_sub hostOps5_fresh (W8 m)) ]

theorem main_run (c : Dev nD) : main (F := F) c = Pipeline.Seg.run (mainSegs m) := (main_chain c).trans (by chain_rfl)

-- The nine items chain, each entered from what the one before left.
set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => BI.emp)
    (u₀ := initOf _ _)
    (hu₀ := by
      rw [BI.bigSep_emp_const]
      refine .trans ?_ fupd_intro
      exact sep_emp_intro)
    (T₀ := fun c => iprop(StableHlo.held (c : Thread nD τ) (Pipeline.ucRefs τ sig) (V0 m c) ∗ R c))
    (Tₙ := fun c => iprop(StableHlo.held (c : Thread nD τ) (Pipeline.ucRefs τ sig) (W9 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => sep_assoc'⟩)
    (hinit := by
      refine Pipeline.initEach L lv fun c => ?_
      rw [show unscopedBufs c (fun b => m ((c : Thread nD τ).loc b)) = _ from Pipeline.unscopedBufs_held c (V0 m c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      iframe Hh HSI)
    (hQ := fun _ h => h)

-- A buffer that no item writes ends as launched.
theorem kept {s : MemSt nD τ sig (Elt F)} (h : ∀ c : Dev nD, ∀ b ∈ Pipeline.ucRefs τ sig, s.mem (((c : Thread nD τ)).1, b) = W9 m c b)
    (c : Dev nD) (b : Ref sig .tc)
    (hb : ¬ (Proc.devRef .tc b : DevRef τ sig).isScoped ∧ b ∉ hostOps5_W ∧ (∀ w, Pipeline.arrRef spec4 w ≠ b)
      ∧ (∀ w, Pipeline.arrRef spec3 w ≠ b) ∧ (∀ w, Pipeline.arrRef spec2 w ≠ b) ∧ (∀ w, Pipeline.arrRef spec1 w ≠ b)
      ∧ (∀ w, Pipeline.arrRef spec0 w ≠ b) ∧ b ∉ hostOps0_2_W ∧ b ∉ hostOps0_1_W ∧ b ∉ hostOps0_W) :
    s.mem ((c.tc : Thread nD τ).loc b) = m ((c.tc : Thread nD τ).loc b) := by
  obtain ⟨hs, h5, a4, a3, a2, a1, a0, g2, g1, g0⟩ := hb
  exact (h c _ (mem_uc b hs)).trans <| (StableHlo.after_of_writes_sub hostOps5 _ hostOps5_writes h5).trans <|
    (W8_of_ne m c b a4).trans <| (W7_of_ne m c b a3).trans <| (W6_of_ne m c b a2).trans <| (W5_of_ne m c b a1).trans <|
    (W4_of_ne m c b a0).trans <| (V3_of m c b g2).trans <| (V2_of m c b g1).trans (V1_of m c b g0)

theorem run_value : θ_run defs (onTc (τ := τ) (main (F := F))) ⟨m, fun _ => 0, ρ⟩ (fun r => ∀ c : Dev nD,
      r.2.mem ((c.tc : Thread nD τ).loc main_v62) = W9 m c main_v62
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v62 (by decide)), kept m h c main_arg0 (by decide), kept m h c main_arg1 (by decide),
     kept m h c main_arg2 (by decide), kept m h c main_arg3 (by decide), kept m h c main_arg4 (by decide),
     kept m h c main_arg5 (by decide), kept m h c main_arg6 (by decide), kept m h c main_arg7 (by decide)⟩)
    (run_all m ρ)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_value m ρ)

end Cert.KernelIdeal.Hand

end
-- ==== Proof.BitsRegionLib.lean ====
import proofs.«417597_j20066087207444_2_alg».proof.Proof.Gen.Kernel.Launch
import proofs.«417597_j20066087207444_2_alg».proof.Proof.Gen.Kernel.Skeleton
import proofs.«417597_j20066087207444_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

theorem zeroOffs : (![0, 0] : Fin 2 → Nat) = fun _ => 0 := funext fun a => by fin_cases a <;> rfl

-- A load of a whole buffer reads its contents.
theorem readAtWhole {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

-- A store to a whole buffer, made last, leaves its payload.
theorem readLastWhole {κ : Kind} {sp : Space} {S : Shape} {e : EltTy} (v : View sig κ sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w :=
  (View.read_writes_eq_canon v f _ fun y => ⟨_, List.mem_cons.mpr (.inl rfl), View.mem_set_unit_zero h inb y⟩).trans
    (View.canon_cons_unit_zero h inb w L)

-- The region's entry invariant holds the scratch buffer b at some contents, beside the rest.
theorem PhiA_split {gr W : ℕ} (spec : Fin W → Pipeline.WinSpec sig gr) (c : Dev nD) (b : Ref sig .tc)
    (h : (Pipeline.scopedRest spec c : sProp 𝕄) = iprop((∃ f : Buf (Elt F) ((c : Thread nD τ).loc b), ((c : Thread nD τ).loc b) ↦{fullShare} f)
      ∗ Pipeline.scopedRestBut spec c [b])) :
    (Pipeline.ΦA spec c : sProp 𝕄) ⊣⊢ iprop((∃ d, owns (c : Thread nD τ) (Memref.whole b) fullShare d)
      ∗ Pipeline.scopedRestBut spec c [b] ∗ ∃ r, prngReg c r) := by
  unfold Pipeline.ΦA; rw [h]; simp only [owns_whole]; exact sep_assoc

/-- A region invariant that carries an accumulator: A before the first point, afterwards P at what the point before left, beside R. -/
def accPhi {X : Type} {N : ℕ} (A : sProp 𝕄) (P : X → sProp 𝕄) (R : sProp 𝕄) (acc : Fin N → X) : (n : ℕ) → n ≤ N → sProp 𝕄
  | 0, _ => A
  | n + 1, hn => iprop(P (acc ⟨n, hn⟩) ∗ R)

-- At any position the accumulator is held at some contents.
theorem accPhi_open {X : Type} {N : ℕ} {A : sProp 𝕄} {P : X → sProp 𝕄} {R : sProp 𝕄} (acc : Fin N → X) (h : A ⊢ iprop((∃ d, P d) ∗ R)) :
    ∀ (n : ℕ) (hn : n ≤ N), accPhi A P R acc n hn ⊢ iprop((∃ d, P d) ∗ R)
  | 0, _ => h
  | _ + 1, _ => sep_mono_left (exists_intro _)

-- The contraction's first step, as the body tests it.
abbrev isFirst (i : grid0.Coords) : Prop :=
  Scalar.cmpi .ne (Scalar.extui (Scalar.cmpi .eq (BitVec.ofNat 32 (i 2).val) 0#32)) 0#32 = 1#1

/-- The dense body's triple where the contraction both starts and ends: inputs kept, accumulator left at acc a w, output at out (acc a w) scale bias. -/
def DenseTriple {Sw Sb So : Shape} {eo : EltTy}
    (kern : grid0.Coords → (a3 : Memref sig .tc .vmem S2560x512 .bf16) → a3.IsWhole → (a4 : Memref sig .tc .vmem Sw .bf16) → a4.IsWhole →
      (a5 : Memref sig .tc .vmem Sb .f32) → a5.IsWhole → (a6 : Memref sig .tc .vmem S2560x1 .f32) → a6.IsWhole →
      (a7 : Memref sig .tc .vmem So eo) → a7.IsWhole → (a8 : Memref sig .tc .vmem So .f32) → a8.IsWhole →
      Prog (TpuEff nD τ sig (Elt F) Λ₀ .tc) PUnit)
    (last : grid0.Coords → BitVec 1) (acc : Vec F S2560x512 .bf16 → Vec F Sw .bf16 → Vec F So .f32)
    (out : Vec F So .f32 → Vec F S2560x1 .f32 → Vec F Sb .f32 → Vec F So eo) : Prop :=
  ∀ (c : Dev nD) i a3 h3 a4 h4 a5 h5 a6 h6 a7 h7 a8 h8, isFirst i → last i = 1#1 → ∀ xa xw xb xs (K : PUnit → sProp 𝕄),
    iprop(owns c.tc a3 fullShare xa ∗ owns c.tc a4 fullShare xw ∗ owns c.tc a5 fullShare xb ∗ owns c.tc a6 fullShare xs
        ∗ (∃ d, owns c.tc a7 fullShare d) ∗ (∃ d, owns c.tc a8 fullShare d)
        ∗ (owns c.tc a3 fullShare xa ∗ owns c.tc a4 fullShare xw ∗ owns c.tc a5 fullShare xb ∗ owns c.tc a6 fullShare xs
            ∗ owns c.tc a7 fullShare (out (acc xa xw) xs xb) ∗ owns c.tc a8 fullShare (acc xa xw) -∗ K ⟨⟩))
      ⊢ wp frame (wpE (defs₀ (F := F)) Variants.none c none) Set.univ (kern i a3 h3 a4 h4 a5 h5 a6 h6 a7 h7 a8 h8) K

-- From the body's triple: the inputs are handed over at xa, xw, xb, xs and A yields the accumulator at some contents beside R.
theorem dense_body {Sw Sb So : Shape} {eo : EltTy} {kern last acc out} (hk : DenseTriple (F := F) (Sw := Sw) (Sb := Sb) (So := So) (eo := eo) kern last acc out)
    (c : Dev nD) {i : grid0.Coords} (hi : isFirst i) (hl : last i = 1#1) {a3 h3 a4 h4 a5 h5 a6 h6 a7 h7 a8 h8}
    {D3 D4 D5 D6 D7 : Type} {X3 : D3 → Vec F S2560x512 .bf16} {X4 : D4 → Vec F Sw .bf16} {X5 : D5 → Vec F Sb .f32}
    {X6 : D6 → Vec F S2560x1 .f32} {X7 : D7 → Vec F So eo} {xa xw xb xs}
    (e3 : ∀ d, X3 d = xa) (e4 : ∀ d, X4 d = xw) (e5 : ∀ d, X5 d = xb) (e6 : ∀ d, X6 d = xs)
    {A R O : sProp 𝕄} (hA : A ⊢ iprop((∃ d, owns c.tc a8 fullShare d) ∗ R)) :
    iprop(A ∗ O ∗ (∃ d, owns c.tc a3 fullShare (X3 d)) ∗ (∃ d, owns c.tc a4 fullShare (X4 d)) ∗ (∃ d, owns c.tc a5 fullShare (X5 d))
        ∗ (∃ d, owns c.tc a6 fullShare (X6 d)) ∗ ∃ d, owns c.tc a7 fullShare (X7 d))
      ⊢ wp frame (wpE (defs₀ (F := F)) Variants.none c none) Set.univ (kern i a3 h3 a4 h4 a5 h5 a6 h6 a7 h7 a8 h8) fun _ =>
        iprop((owns c.tc a8 fullShare (acc xa xw) ∗ R) ∗ O ∗ owns c.tc a3 fullShare xa ∗ owns c.tc a4 fullShare xw
          ∗ owns c.tc a5 fullShare xb ∗ owns c.tc a6 fullShare xs ∗ owns c.tc a7 fullShare (out (acc xa xw) xs xb)) := by
  simp only [e3, e4, e5, e6]
  refine (sep_mono_left hA).trans ?_
  iintro ⟨⟨HS, HR⟩, Ho, ⟨%d0, H0⟩, ⟨%d1, H1⟩, ⟨%d2, H2⟩, ⟨%d3, H3⟩, ⟨%d4, H4⟩⟩
  iapply (hk c i a3 h3 a4 h4 a5 h5 a6 h6 a7 h7 a8 h8 hi hl xa xw xb xs _)
  iframe H0 H1 H2 H3 HS
  isplitl [H4]; · iexists _; iexact H4
  iintro ⟨H0, H1, H2, H3, H4, HS⟩
  iframe

end Cert.Kernel.Hand

end
-- ==== Proof.BitsRegion0.lean ====
import proofs.«417597_j20066087207444_2_alg».proof.Proof.BitsRegionLib

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ablk0 (c : Dev nD) (t : Fin cfg0.N) : Vec F S2560x512 .bf16 := iblk0 V c 0 t
abbrev wblk0 (c : Dev nD) (t : Fin cfg0.N) : Vec F S512x512 .bf16 := iblk0 V c 1 t
abbrev bblk0 (c : Dev nD) (t : Fin cfg0.N) : Vec F S1x512 .f32 := iblk0 V c 2 t
abbrev sblk0 (c : Dev nD) (t : Fin cfg0.N) : Vec F S2560x1 .f32 := iblk0 V c 3 t

/-- The accumulator after point t: zeros plus the product of the point's row block with the weights. -/
def accAt0 (c : Dev nD) (t : Fin cfg0.N) : Vec F S2560x512 .f32 := k0_pay2 (k0_pay1 (F := F)) (ablk0 V c t) (wblk0 V c t)

/-- The output block after point t: the accumulator scaled row by row, the bias row added. -/
def outAt0 (c : Dev nD) (t : Fin cfg0.N) : Vec F S2560x512 .bf16 := k0_pay3 (accAt0 V c t) (sblk0 V c t) (bblk0 V c t)

/-- Inputs are left at their blocks, the output at outAt0; the accumulator is carried at what the point before left. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outAt0 V c t
  Φ t := accPhi (Pipeline.ΦA spec0 c) (owns c.tc (Memref.whole cc0_scratch0 : Memref sig .tc .vmem S2560x512 .f32) fullShare)
    iprop(Pipeline.scopedRestBut spec0 c [cc0_scratch0] ∗ ∃ r, prngReg c r) (accAt0 V c) t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) : (dat0 V c).after 4 t = outAt0 V c t := by dsimp only [dat0]

-- The contraction axis has one step, so every point both clears the accumulator and stores the output block.
theorem pts0 : ∀ t : Fin cfg0.N,
    isFirst (grid0.coords t) ∧ k0_cond2 (grid0.coords t) = 1#1 ∧ idle0 4 (grid0.coords t) = false := by decide +kernel

set_option maxHeartbeats 4000000 in
-- The body on whole buffers at such a point leaves the accumulator at 0 + a·w and the output at scale ⊙ (0 + a·w) + bias.
theorem sound_kernel0 : DenseTriple (F := F) cc0__dense_matmul_kernel k0_cond2 (k0_pay2 k0_pay1) k0_pay3 := by
  intro c i a3 h3 a4 h4 a5 h5 a6 h6 a7 h7 a8 h8 hfirst hlast xa xw xb xs K
  unfold owns
  iintro ⟨⟨%f3, %e3, H3⟩, ⟨%f4, %e4, H4⟩, ⟨%f5, %e5, H5⟩, ⟨%f6, %e6, H6⟩, ⟨%d7, %f7, -, H7⟩, ⟨%d8, %f8, -, H8⟩, Hk⟩
  subst e3 e4 e5 e6
  sl_unfold [cc0__dense_matmul_kernel]
  sl_exec (disch := first | exact hfirst | exact hlast)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (readLastWhole _ _ zeroOffs _ _ _).trans ?_
    sl_unfold_run_names
    simp only [View.readCov_cons_toLoadRect, readAtWhole a3.view f3 zeroOffs, readAtWhole a4.view f4 zeroOffs,
      readAtWhole a5.view f5 zeroOffs, readAtWhole a6.view f6 zeroOffs]
  iexists _; isplitr
  swap; · iexact H8
  ipureintro
  refine (readLastWhole _ _ zeroOffs _ _ _).trans ?_
  sl_unfold_run_names
  simp only [View.readCov_cons_toLoadRect, readAtWhole a3.view f3 zeroOffs, readAtWhole a4.view f4 zeroOffs]

-- Before the body at any point an input's contents are its block there: the body leaves inputs unchanged.
theorem found0 (c : Dev nD) (t : Fin cfg0.N) : ∀ (w : Fin cfg0.W) (hw : w.val < 4 := by decide) d,
    (dat0 V c).before w t d = (dat0 V c).fetched w t d
  | ⟨0, _⟩, _ | ⟨1, _⟩, _ | ⟨2, _⟩, _ | ⟨3, _⟩, _ => (dat0 V c).before_in_eq_fetched _ rfl (fun _ => rfl) (fun _ _ _ => rfl) (fun _ => rfl) t

-- The inputs' buffers hold their blocks and the invariant yields the accumulator at some contents, so the body's triple applies.
theorem body_obligation0 (c : Dev nD) : BodyObligation (dat0 (F := F) V c) (defs₀ (F := F)) Variants.none () Set.univ := fun t => by
  rw [bigSep_W0, bigSep_W0]
  simp only [(pts0 t).2.2]
  show _ ⊢ wp _ _ _ (bodyAt0 t) _
  exact dense_body sound_kernel0 c (pts0 t).1 (pts0 t).2.1 (xa := ablk0 V c t) (xw := wblk0 V c t) (xb := bblk0 V c t) (xs := sblk0 V c t)
    (found0 V c t 0) (found0 V c t 1) (found0 V c t 2) (found0 V c t 3) (accPhi_open (accAt0 V c) (PhiA_split spec0 c cc0_scratch0 (scopedRest0_split c)).1 t.val (Nat.le_of_lt t.isLt))

theorem hin0 (c : Dev nD) : (Pipeline.ΦA spec0 c : sProp 𝕄) ⊢ (dat0 V c).Φ 0 := .of_eq rfl

-- After the last point the accumulator's contents are forgotten.
theorem hout0 (c : Dev nD) : (dat0 V c).Φ (Fin.last cfg0.N) ⊢ (Pipeline.ΦA spec0 c : sProp 𝕄) :=
  (accPhi_open (accAt0 V c) (PhiA_split spec0 c cc0_scratch0 (scopedRest0_split c)).1 cfg0.N (Nat.le_refl _)).trans (PhiA_split spec0 c cc0_scratch0 (scopedRest0_split c)).2

end Cert.Kernel.Hand

end
-- ==== Proof.BitsRegion1.lean ====
import proofs.«417597_j20066087207444_2_alg».proof.Proof.BitsRegionLib

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev firstAt1 (i : grid1.Coords) : Prop :=
  (Scalar.cmpi .ne (Scalar.extui (Scalar.cmpi .eq (BitVec.ofNat 32 (i 1).val) 0#32)) 0#32) = 1#1

abbrev lastAt1 (i : grid1.Coords) : Prop := k1_cond2 i = 1#1

theorem hfirstAt1 : ∀ t : Fin cfg1.N, firstAt1 (grid1.coords t) ↔ t.val % 8 = 0 :=
  (by decide +kernel : ∀ t : Fin grid1.N, firstAt1 (grid1.coords t) ↔ t.val % 8 = 0)

theorem hlastAt1 : ∀ t : Fin cfg1.N, lastAt1 (grid1.coords t) ↔ t.val % 8 = 7 :=
  (by decide +kernel : ∀ t : Fin grid1.N, lastAt1 (grid1.coords t) ↔ t.val % 8 = 7)

-- A load of the whole of a buffer held at the contents that read X reads X.
theorem readUnread {sp : Space} {S : Shape} {e : EltTy} {m : Memref sig .tc sp S e} (h : m.IsWhole) (X : S.Idx → Elt F e)
    {off : Fin S.rank → Nat} (ho : off = fun _ => 0) (inb : ∀ a, off a + S.size a ≤ S.size a) :
    m.view.readAt (Elt F) (Rect.unit off S.size inb).toLoadRect (h.unread X) = X :=
  (readAtWhole _ _ ho inb).trans (h.read_unread X)

-- A whole buffer at the contents that read X is owned at X.
theorem ownsUnread {sp : Space} {S : Shape} {e : EltTy} {m : Memref sig .tc sp S e} (h : m.IsWhole) (c : Dev nD) (X : S.Idx → Elt F e) :
    (m.view.loc (c : Thread nD τ) ↦[m.view.set]{fullShare} h.unread X : sProp 𝕄)
      ⊢ iprop(∃ f, ⌜m.view.read (Elt F) f = X⌝ ∗ (m.view.loc (c : Thread nD τ) ↦[m.view.set]{fullShare} f)) := by
  iintro H; iexists _; isplitr; · ipureintro; exact h.read_unread _
  iexact H

abbrev AggKernel (F : FTy → Type) [FloatOps F] :=
  (i : grid1.Coords) → (arg2 : Memref sig .tc .vmem S2560x1280 .bf16) → arg2.IsWhole → (arg3 : Memref sig .tc .vmem S1280x512 .bf16) → arg3.IsWhole →
    (arg4 : Memref sig .tc .vmem S2560x1 .f32) → arg4.IsWhole → (arg5 : Memref sig .tc .vmem S1x512 .f32) → arg5.IsWhole →
    (arg6 : Memref sig .tc .vmem S2560x512 .bf16) → arg6.IsWhole → (arg7 : Memref sig .tc .vmem S2560x512 .f32) → arg7.IsWhole →
    Prog (TpuEff nD τ sig (Elt F) Λ₀ .tc) PUnit

-- At a point that is not last the accumulator, found at a, ends at z a plus the block product: z a the zeros at a first point, a at a later one.
abbrev AggAcc (kern : AggKernel F) (p2 : Vec F S2560x512 .f32 → Vec F S2560x1280 .bf16 → Vec F S1280x512 .bf16 → FVec F S2560x512 .f32)
    (cond : grid1.Coords → Prop) (z : Vec F S2560x512 .f32 → Vec F S2560x512 .f32) : Prop :=
  ∀ (c : Dev nD) (E : Set ℕ) (i : grid1.Coords)
    (arg2 : Memref sig .tc .vmem S2560x1280 .bf16) (harg2 : arg2.IsWhole) (arg3 : Memref sig .tc .vmem S1280x512 .bf16) (harg3 : arg3.IsWhole)
    (arg4 : Memref sig .tc .vmem S2560x1 .f32) (harg4 : arg4.IsWhole) (arg5 : Memref sig .tc .vmem S1x512 .f32) (harg5 : arg5.IsWhole)
    (arg6 : Memref sig .tc .vmem S2560x512 .bf16) (harg6 : arg6.IsWhole) (arg7 : Memref sig .tc .vmem S2560x512 .f32) (harg7 : arg7.IsWhole)
    (hf : cond i) (hl : ¬lastAt1 i)
    (x0 : Vec F S2560x1280 .bf16) (x1 : Vec F S1280x512 .bf16) (a : Vec F S2560x512 .f32) (K : PUnit → sProp 𝕄),
    iprop(owns (c : Thread nD τ) arg2 fullShare x0 ∗ owns (c : Thread nD τ) arg3 fullShare x1 ∗ owns (c : Thread nD τ) arg7 fullShare a
        ∗ (iprop(owns (c : Thread nD τ) arg2 fullShare x0 ∗ owns (c : Thread nD τ) arg3 fullShare x1
            ∗ owns (c : Thread nD τ) arg7 fullShare (p2 (z a) x0 x1)) -∗ K ⟨⟩))
      ⊢ wp frame (wpE (defs₀ (F := F)) Variants.none c none) E (kern i arg2 harg2 arg3 harg3 arg4 harg4 arg5 harg5 arg6 harg6 arg7 harg7) K

-- At a last point the accumulator does the same, and the output block is formed from it, the row scale and the bias.
abbrev AggLast (kern : AggKernel F) (p2 : Vec F S2560x512 .f32 → Vec F S2560x1280 .bf16 → Vec F S1280x512 .bf16 → FVec F S2560x512 .f32) (p3 : Vec F S2560x512 .f32 → Vec F S2560x1 .f32 → Vec F S1x512 .f32 → FVec F S2560x512 .bf16) : Prop :=
  ∀ (c : Dev nD) (E : Set ℕ) (i : grid1.Coords)
    (arg2 : Memref sig .tc .vmem S2560x1280 .bf16) (harg2 : arg2.IsWhole) (arg3 : Memref sig .tc .vmem S1280x512 .bf16) (harg3 : arg3.IsWhole)
    (arg4 : Memref sig .tc .vmem S2560x1 .f32) (harg4 : arg4.IsWhole) (arg5 : Memref sig .tc .vmem S1x512 .f32) (harg5 : arg5.IsWhole)
    (arg6 : Memref sig .tc .vmem S2560x512 .bf16) (harg6 : arg6.IsWhole) (arg7 : Memref sig .tc .vmem S2560x512 .f32) (harg7 : arg7.IsWhole)
    (hf : ¬firstAt1 i) (hl : lastAt1 i)
    (x0 : Vec F S2560x1280 .bf16) (x1 : Vec F S1280x512 .bf16) (x2 : Vec F S2560x1 .f32) (x3 : Vec F S1x512 .f32)
    (a : Vec F S2560x512 .f32) (K : PUnit → sProp 𝕄),
    iprop(owns (c : Thread nD τ) arg2 fullShare x0 ∗ owns (c : Thread nD τ) arg3 fullShare x1
        ∗ owns (c : Thread nD τ) arg4 fullShare x2 ∗ owns (c : Thread nD τ) arg5 fullShare x3
        ∗ (∃ y, owns (c : Thread nD τ) arg6 fullShare y) ∗ owns (c : Thread nD τ) arg7 fullShare a
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (p3 (p2 a x0 x1) x2 x3)
            ∗ owns (c : Thread nD τ) arg7 fullShare (p2 a x0 x1)) -∗ K ⟨⟩))
      ⊢ wp frame (wpE (defs₀ (F := F)) Variants.none c none) E (kern i arg2 harg2 arg3 harg3 arg4 harg4 arg5 harg5 arg6 harg6 arg7 harg7) K

theorem agg1_first : AggAcc (F := F) cc1__agg_kernel k1_pay2 firstAt1 fun _ => k1_pay1 := fun c E i arg2 harg2 arg3 harg3 arg4 harg4 arg5 harg5 arg6 harg6 arg7 harg7 hf hl x0 x1 a K => by
  simp only [cc1__agg_kernel_eq_skeleton]; unfold cc1__agg_kernel_skel
  unfold owns
  iintro ⟨⟨%f0, %hf0, H0⟩, ⟨%f1, %hf1, H1⟩, ⟨%fa, -, HA⟩, Hk⟩
  obtain rfl := harg2.eq_unread hf0; obtain rfl := harg3.eq_unread hf1
  sl_exec (disch := first | exact hf | exact hl)
  sl_step
  iapply Hk
  isplitl [H0]; · iapply ownsUnread harg2; iexact H0
  isplitl [H1]; · iapply ownsUnread harg3; iexact H1
  iexists _; isplitr
  swap; · iexact HA
  ipureintro
  sl_unfold_words
  rw [readLastWhole _ _ zeroOffs]
  simp only [View.readCov_unit_zero (S := S2560x512) _ zeroOffs, readUnread harg2 _ zeroOffs, readUnread harg3 _ zeroOffs]

theorem agg1_next : AggAcc (F := F) cc1__agg_kernel k1_pay2 (fun i => ¬firstAt1 i) fun a => a := fun c E i arg2 harg2 arg3 harg3 arg4 harg4 arg5 harg5 arg6 harg6 arg7 harg7 hf hl x0 x1 a K => by
  simp only [cc1__agg_kernel_eq_skeleton]; unfold cc1__agg_kernel_skel
  unfold owns
  iintro ⟨⟨%f0, %hf0, H0⟩, ⟨%f1, %hf1, H1⟩, ⟨%fa, %hfa, HA⟩, Hk⟩
  obtain rfl := harg2.eq_unread hf0; obtain rfl := harg3.eq_unread hf1; obtain rfl := harg7.eq_unread hfa
  sl_exec (disch := first | exact hf | exact hl)
  sl_step
  iapply Hk
  isplitl [H0]; · iapply ownsUnread harg2; iexact H0
  isplitl [H1]; · iapply ownsUnread harg3; iexact H1
  iexists _; isplitr
  swap; · iexact HA
  ipureintro
  sl_unfold_words
  rw [readLastWhole _ _ zeroOffs]
  simp only [readUnread harg2 _ zeroOffs, readUnread harg3 _ zeroOffs, readUnread harg7 _ zeroOffs]

theorem agg1_last : AggLast (F := F) cc1__agg_kernel k1_pay2 k1_pay3 := fun c E i arg2 harg2 arg3 harg3 arg4 harg4 arg5 harg5 arg6 harg6 arg7 harg7 hf hl x0 x1 x2 x3 a K => by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%y, %fy, -, H4⟩, ⟨%fa, %hfa, HA⟩, Hk⟩
  obtain rfl := harg2.eq_unread hf0; obtain rfl := harg3.eq_unread hf1; obtain rfl := harg4.eq_unread hf2
  obtain rfl := harg5.eq_unread hf3; obtain rfl := harg7.eq_unread hfa
  sl_exec (disch := first | exact hf | exact hl)
  sl_step
  iapply Hk
  isplitl [H0]; · iapply ownsUnread harg2; iexact H0
  isplitl [H1]; · iapply ownsUnread harg3; iexact H1
  isplitl [H2]; · iapply ownsUnread harg4; iexact H2
  isplitl [H3]; · iapply ownsUnread harg5; iexact H3
  isplitl [H4]
  · iexists _; isplitr
    swap; · iexact H4
    ipureintro
    sl_unfold_words
    rw [readLastWhole _ _ zeroOffs]
    simp only [View.readCov_unit_zero (S := S2560x512) _ zeroOffs, readUnread harg2 _ zeroOffs, readUnread harg3 _ zeroOffs,
      readUnread harg4 _ zeroOffs, readUnread harg5 _ zeroOffs, readUnread harg7 _ zeroOffs]
  iexists _; isplitr
  swap; · iexact HA
  ipureintro
  sl_unfold_words
  rw [readLastWhole _ _ zeroOffs]
  simp only [readUnread harg2 _ zeroOffs, readUnread harg3 _ zeroOffs, readUnread harg7 _ zeroOffs]

-- The second aggregation kernel is the same function, so it has the same triples.
theorem agg3_first : AggAcc (F := F) cc3__agg_kernel k3_pay2 firstAt1 fun _ => k3_pay1 := agg1_first
theorem agg3_next : AggAcc (F := F) cc3__agg_kernel k3_pay2 (fun i => ¬firstAt1 i) fun a => a := agg1_next
theorem agg3_last : AggLast (F := F) cc3__agg_kernel k3_pay2 k3_pay3 := agg1_last

variable (V : (c : Dev nD) → (b : Ref sig .tc) → Buf (Elt F) ((c : Thread nD τ).loc b))

theorem idleAt1_4 : ∀ t : Fin cfg1.N, ¬lastAt1 (grid1.coords t) → cfg1.idle 4 (grid1.coords t) = true := by decide +kernel

theorem noFlush1_4 (t : Fin cfg1.N) (h : ¬lastAt1 (grid1.coords t)) : (cfg1.win 4).flush t = false :=
  Bool.eq_false_iff.mpr fun hf => h ((hlastAt1 t).mpr ((flush1_4 t).mp hf))

theorem liveAt1_4 : ∀ t : Fin cfg1.N, lastAt1 (grid1.coords t) → cfg1.idle 4 (grid1.coords t) = false := by decide +kernel

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cblk1 (c : Dev nD) (t : Fin cfg1.N) : Vec F S2560x1280 .bf16 := iblk1 V c 0 t

abbrev hblk1 (c : Dev nD) (t : Fin cfg1.N) : Vec F S1280x512 .bf16 := iblk1 V c 1 t

abbrev dblk1 (c : Dev nD) (t : Fin cfg1.N) : Vec F S2560x1 .f32 := iblk1 V c 2 t

abbrev bblk1 (c : Dev nD) (t : Fin cfg1.N) : Vec F S1x512 .f32 := iblk1 V c 3 t

-- The accumulator after point n: started afresh at the points ≡ 0 (mod 8), otherwise added to.
def accAt1 (c : Dev nD) : (n : ℕ) → n < cfg1.N → Vec F S2560x512 .f32
  | 0, hn => k1_pay2 (k1_pay1 (F := F)) (cblk1 V c ⟨0, hn⟩) (hblk1 V c ⟨0, hn⟩)
  | n + 1, hn => if (n + 1) % 8 = 0 then k1_pay2 (k1_pay1 (F := F)) (cblk1 V c ⟨n + 1, hn⟩) (hblk1 V c ⟨n + 1, hn⟩)
                 else k1_pay2 (accAt1 c n (Nat.lt_of_succ_lt hn)) (cblk1 V c ⟨n + 1, hn⟩) (hblk1 V c ⟨n + 1, hn⟩)

def outAt1 (c : Dev nD) (t : Fin cfg1.N) : Vec F S2560x512 .bf16 := k1_pay3 (accAt1 V c t.val t.isLt) (dblk1 V c t) (bblk1 V c t)

theorem accAt1_first (c : Dev nD) (t : Fin cfg1.N) (h : t.val % 8 = 0) :
    accAt1 V c t.val t.isLt = k1_pay2 (k1_pay1 (F := F)) (cblk1 V c t) (hblk1 V c t) := by
  obtain ⟨n, hn⟩ := t
  cases n with
  | zero => rfl
  | succ n => exact (if_pos h).trans rfl

theorem accAt1_next (c : Dev nD) (t : Fin cfg1.N) (h : ¬t.val % 8 = 0) :
    accAt1 V c t.val t.isLt
      = k1_pay2 (accAt1 V c (t.val - 1) (Nat.lt_of_le_of_lt (Nat.sub_le _ _) t.isLt)) (cblk1 V c t) (hblk1 V c t) := by
  obtain ⟨n, hn⟩ := t
  cases n with
  | zero => exact absurd (Nat.zero_mod _) h
  | succ n => exact (if_neg h).trans rfl

abbrev held1 (c : Dev nD) (a : Vec F S2560x512 .f32) : sProp 𝕄 :=
  iprop(owns (c : Thread nD τ) (Memref.whole cc1_scratch0 : Memref sig .tc .vmem S2560x512 .f32) fullShare a ∗ Pipeline.scopedRestBut spec1 c [cc1_scratch0] ∗ (∃ r, prngReg c r))

-- The invariant: before point 0 what the region is entered with, later the accumulator at what the point before left.
def Phi1 (c : Dev nD) : (n : ℕ) → n ≤ cfg1.N → sProp 𝕄 :=
  accPhi (Pipeline.ΦA spec1 c) (fun a => owns (c : Thread nD τ) (Memref.whole cc1_scratch0 : Memref sig .tc .vmem S2560x512 .f32) fullShare a)
    iprop(Pipeline.scopedRestBut spec1 c [cc1_scratch0] ∗ (∃ r, prngReg c r)) fun t : Fin cfg1.N => accAt1 V c t.val t.isLt

theorem Phi1_succ (c : Dev nD) (n : ℕ) (hn : n < cfg1.N) :
    Phi1 V c (n + 1) hn = held1 c (accAt1 V c n hn) := rfl

theorem Phi1_pos (c : Dev nD) (n : ℕ) (h : n ≤ cfg1.N) (hz : n ≠ 0) :
    Phi1 V c n h = held1 c (accAt1 V c (n - 1) (by omega)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt1 V c t := by dsimp only [dat1]

theorem Phi1_some (c : Dev nD) (n : ℕ) (h : n ≤ cfg1.N) : Phi1 V c n h ⊢
    iprop((∃ a, owns (c : Thread nD τ) (Memref.whole cc1_scratch0 : Memref sig .tc .vmem S2560x512 .f32) fullShare a) ∗ Pipeline.scopedRestBut spec1 c [cc1_scratch0] ∗ (∃ r, prngReg c r)) :=
  accPhi_open _ (PhiA_split spec1 c cc1_scratch0 (scopedRest1_split c)).1 n h

theorem leaves1 (c : Dev nD) (w : Fin cfg1.W) (t : Fin cfg1.N) (h : cfg1.idle w (grid1.coords t) = false) :
    (dat1 V c).leavesExact w t = owns (c : Thread nD τ) ((cfg1.win w).stage (cfg1.slots t w)) fullShare ((dat1 V c).after w t) := by
  unfold Dat.leavesExact; rw [h]

-- Every input window's buffer holds the window's block at every point.
theorem before1 (c : Dev nD) (t : Fin cfg1.N) :
    (∀ d, (dat1 V c).before 0 t d = iblk1 V c 0 t) ∧ (∀ d, (dat1 V c).before 1 t d = iblk1 V c 1 t)
      ∧ (∀ d, (dat1 V c).before 2 t d = iblk1 V c 2 t) ∧ (∀ d, (dat1 V c).before 3 t d = iblk1 V c 3 t) := by
  refine ⟨?_, ?_, ?_, ?_⟩ <;> exact fun d =>
    ((dat1 V c).before_in_eq_fetched _ rfl (fun _ => rfl) (fun _ _ _ => rfl)
      (fun t => by dsimp only [dat1]; unfold Dat.blockOf iblk1; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [(before1 V c t).1, (before1 V c t).2.1, (before1 V c t).2.2.1, (before1 V c t).2.2.2]
  rw [show (dat1 V c).owesAt () t.succ = (dat1 V c).owesAt () t.castSucc from rfl]
  rw [show (dat1 V c).Φ t.succ = Phi1 V c (t.val + 1) t.isLt from rfl, Phi1_succ,
    show (dat1 V c).Φ t.castSucc = Phi1 V c t.val (Nat.le_of_lt t.isLt) from rfl]
  unfold held1
  rw [leaves1 V c 0 t rfl, leaves1 V c 1 t rfl, leaves1 V c 2 t rfl, leaves1 V c 3 t rfl, after1_0, after1_1, after1_2, after1_3]
  by_cases h0 : t.val % 8 = 0
  · have h7 : ¬t.val % 8 = 7 := by omega
    have hf : firstAt1 (grid1.coords t) := (hfirstAt1 t).mpr h0
    have hl : ¬lastAt1 (grid1.coords t) := fun h => h7 ((hlastAt1 t).mp h)
    rw [Dat.leavesExact_idle (dat1 V c) 4 t (idleAt1_4 t hl) (noFlush1_4 t hl), accAt1_first V c t h0]
    refine (sep_mono_left (Phi1_some V c _ _)).trans ?_
    iintro ⟨⟨⟨%a, HS⟩, HR, Hg⟩, Ho, ⟨%d0, H0⟩, ⟨%d1, H1⟩, ⟨%d2, H2⟩, ⟨%d3, H3⟩, H4⟩
    iapply (agg1_first c Set.univ (grid1.coords t) _ _ _ _ _ _ _ _ _ _ _ _ hf hl (cblk1 V c t) (hblk1 V c t) a _)
    iframe H0 H1 HS
    iintro ⟨H0, H1, HS⟩
    iframe
  · have hf : ¬firstAt1 (grid1.coords t) := fun h => h0 ((hfirstAt1 t).mp h)
    rw [Phi1_pos V c _ _ (fun e => h0 (by rw [e]))]
    unfold held1
    by_cases h7 : t.val % 8 = 7
    · have hl : lastAt1 (grid1.coords t) := (hlastAt1 t).mpr h7
      rw [leaves1 V c 4 t (liveAt1_4 t hl), after1_4]
      unfold outAt1
      rw [accAt1_next V c t h0]
      iintro ⟨⟨HS, HR, Hg⟩, Ho, ⟨%d0, H0⟩, ⟨%d1, H1⟩, ⟨%d2, H2⟩, ⟨%d3, H3⟩, ⟨%d4, H4⟩⟩
      iapply (agg1_last c Set.univ (grid1.coords t) _ _ _ _ _ _ _ _ _ _ _ _ hf hl (cblk1 V c t) (hblk1 V c t) (dblk1 V c t) (bblk1 V c t) _ _)
      iframe H0 H1 H2 H3 HS
      isplitl [H4]; · iexists _; iexact H4
      iintro ⟨H0, H1, H2, H3, H4, HS⟩
      iframe
    · have hl : ¬lastAt1 (grid1.coords t) := fun h => h7 ((hlastAt1 t).mp h)
      rw [Dat.leavesExact_idle (dat1 V c) 4 t (idleAt1_4 t hl) (noFlush1_4 t hl), accAt1_next V c t h0]
      iintro ⟨⟨HS, HR, Hg⟩, Ho, ⟨%d0, H0⟩, ⟨%d1, H1⟩, ⟨%d2, H2⟩, ⟨%d3, H3⟩, H4⟩
      iapply (agg1_next c Set.univ (grid1.coords t) _ _ _ _ _ _ _ _ _ _ _ _ hf hl (cblk1 V c t) (hblk1 V c t) _ _)
      iframe H0 H1 HS
      iintro ⟨H0, H1, HS⟩
      iframe

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := .rfl

theorem hout1 (c : Dev nD) : (dat1 V c).Φ (Fin.last cfg1.N) ⊢ (Pipeline.ΦA spec1 c : sProp 𝕄) :=
  (Phi1_some V c cfg1.N (Nat.le_refl _)).trans (PhiA_split spec1 c cc1_scratch0 (scopedRest1_split c)).2

end Cert.Kernel.Hand

end
-- ==== Proof.BitsRegion2.lean ====
import proofs.«417597_j20066087207444_2_alg».proof.Proof.BitsRegion0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev ablk2 (c : Dev nD) (t : Fin cfg2.N) : Vec F S2560x512 .bf16 := iblk2 V c 0 t
abbrev wblk2 (c : Dev nD) (t : Fin cfg2.N) : Vec F S512x512 .bf16 := iblk2 V c 1 t
abbrev bblk2 (c : Dev nD) (t : Fin cfg2.N) : Vec F S1x512 .f32 := iblk2 V c 2 t
abbrev sblk2 (c : Dev nD) (t : Fin cfg2.N) : Vec F S2560x1 .f32 := iblk2 V c 3 t

/-- The accumulator after point t: zeros plus the product of the point's row block with the weights. -/
def accAt2 (c : Dev nD) (t : Fin cfg2.N) : Vec F S2560x512 .f32 := k2_pay2 (k2_pay1 (F := F)) (ablk2 V c t) (wblk2 V c t)

/-- The output block after point t: the accumulator scaled row by row, the bias row added. -/
def outAt2 (c : Dev nD) (t : Fin cfg2.N) : Vec F S2560x512 .bf16 := k2_pay3 (accAt2 V c t) (sblk2 V c t) (bblk2 V c t)

/-- Inputs are left at their blocks, the output at outAt2; the accumulator is carried at what the point before left. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outAt2 V c t
  Φ t := accPhi (Pipeline.ΦA spec2 c) (owns c.tc (Memref.whole cc2_scratch0 : Memref sig .tc .vmem S2560x512 .f32) fullShare)
    iprop(Pipeline.scopedRestBut spec2 c [cc2_scratch0] ∗ ∃ r, prngReg c r) (accAt2 V c) t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) : (dat2 V c).after 4 t = outAt2 V c t := by dsimp only [dat2]

-- The contraction axis has one step, so every point both clears the accumulator and stores the output block.
theorem pts2 : ∀ t : Fin cfg2.N,
    isFirst (grid2.coords t) ∧ k2_cond2 (grid2.coords t) = 1#1 ∧ idle2 4 (grid2.coords t) = false := by decide +kernel

-- This region's body is region 0's.
theorem sound_kernel2 : DenseTriple (F := F) cc2__dense_matmul_kernel k2_cond2 (k2_pay2 k2_pay1) k2_pay3 := sound_kernel0

-- Before the body at any point an input's contents are its block there: the body leaves inputs unchanged.
theorem found2 (c : Dev nD) (t : Fin cfg2.N) : ∀ (w : Fin cfg2.W) (hw : w.val < 4 := by decide) d,
    (dat2 V c).before w t d = (dat2 V c).fetched w t d
  | ⟨0, _⟩, _ | ⟨1, _⟩, _ | ⟨2, _⟩, _ | ⟨3, _⟩, _ => (dat2 V c).before_in_eq_fetched _ rfl (fun _ => rfl) (fun _ _ _ => rfl) (fun _ => rfl) t

-- The inputs' buffers hold their blocks and the invariant yields the accumulator at some contents, so the body's triple applies.
theorem body_obligation2 (c : Dev nD) : BodyObligation (dat2 (F := F) V c) (defs₀ (F := F)) Variants.none () Set.univ := fun t => by
  rw [bigSep_W2, bigSep_W2]
  simp only [(pts2 t).2.2]
  show _ ⊢ wp _ _ _ (bodyAt2 t) _
  exact dense_body sound_kernel2 c (pts2 t).1 (pts2 t).2.1 (xa := ablk2 V c t) (xw := wblk2 V c t) (xb := bblk2 V c t) (xs := sblk2 V c t)
    (found2 V c t 0) (found2 V c t 1) (found2 V c t 2) (found2 V c t 3) (accPhi_open (accAt2 V c) (PhiA_split spec2 c cc2_scratch0 (scopedRest2_split c)).1 t.val (Nat.le_of_lt t.isLt))

theorem hin2 (c : Dev nD) : (Pipeline.ΦA spec2 c : sProp 𝕄) ⊢ (dat2 V c).Φ 0 := .of_eq rfl

-- After the last point the accumulator's contents are forgotten.
theorem hout2 (c : Dev nD) : (dat2 V c).Φ (Fin.last cfg2.N) ⊢ (Pipeline.ΦA spec2 c : sProp 𝕄) :=
  (accPhi_open (accAt2 V c) (PhiA_split spec2 c cc2_scratch0 (scopedRest2_split c)).1 cfg2.N (Nat.le_refl _)).trans (PhiA_split spec2 c cc2_scratch0 (scopedRest2_split c)).2

end Cert.Kernel.Hand

end
-- ==== Proof.BitsRegion3.lean ====
import proofs.«417597_j20066087207444_2_alg».proof.Proof.BitsRegion1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem idleAt3_4 : ∀ t : Fin cfg3.N, ¬lastAt1 (grid3.coords t) → cfg3.idle 4 (grid3.coords t) = true := by decide +kernel

theorem noFlush3_4 (t : Fin cfg3.N) (h : ¬lastAt1 (grid3.coords t)) : (cfg3.win 4).flush t = false :=
  Bool.eq_false_iff.mpr fun hf => h ((hlastAt1 t).mpr ((flush3_4 t).mp hf))

theorem liveAt3_4 : ∀ t : Fin cfg3.N, lastAt1 (grid3.coords t) → cfg3.idle 4 (grid3.coords t) = false := by decide +kernel

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cblk3 (c : Dev nD) (t : Fin cfg3.N) : Vec F S2560x1280 .bf16 := iblk3 V c 0 t

abbrev hblk3 (c : Dev nD) (t : Fin cfg3.N) : Vec F S1280x512 .bf16 := iblk3 V c 1 t

abbrev dblk3 (c : Dev nD) (t : Fin cfg3.N) : Vec F S2560x1 .f32 := iblk3 V c 2 t

abbrev bblk3 (c : Dev nD) (t : Fin cfg3.N) : Vec F S1x512 .f32 := iblk3 V c 3 t

-- The accumulator after point n: started afresh at the points ≡ 0 (mod 8), otherwise added to.
def accAt3 (c : Dev nD) : (n : ℕ) → n < cfg3.N → Vec F S2560x512 .f32
  | 0, hn => k3_pay2 (k3_pay1 (F := F)) (cblk3 V c ⟨0, hn⟩) (hblk3 V c ⟨0, hn⟩)
  | n + 1, hn => if (n + 1) % 8 = 0 then k3_pay2 (k3_pay1 (F := F)) (cblk3 V c ⟨n + 1, hn⟩) (hblk3 V c ⟨n + 1, hn⟩)
                 else k3_pay2 (accAt3 c n (Nat.lt_of_succ_lt hn)) (cblk3 V c ⟨n + 1, hn⟩) (hblk3 V c ⟨n + 1, hn⟩)

def outAt3 (c : Dev nD) (t : Fin cfg3.N) : Vec F S2560x512 .bf16 := k3_pay3 (accAt3 V c t.val t.isLt) (dblk3 V c t) (bblk3 V c t)

theorem accAt3_first (c : Dev nD) (t : Fin cfg3.N) (h : t.val % 8 = 0) :
    accAt3 V c t.val t.isLt = k3_pay2 (k3_pay1 (F := F)) (cblk3 V c t) (hblk3 V c t) := by
  obtain ⟨n, hn⟩ := t
  cases n with
  | zero => rfl
  | succ n => exact (if_pos h).trans rfl

theorem accAt3_next (c : Dev nD) (t : Fin cfg3.N) (h : ¬t.val % 8 = 0) :
    accAt3 V c t.val t.isLt
      = k3_pay2 (accAt3 V c (t.val - 1) (Nat.lt_of_le_of_lt (Nat.sub_le _ _) t.isLt)) (cblk3 V c t) (hblk3 V c t) := by
  obtain ⟨n, hn⟩ := t
  cases n with
  | zero => exact absurd (Nat.zero_mod _) h
  | succ n => exact (if_neg h).trans rfl

abbrev held3 (c : Dev nD) (a : Vec F S2560x512 .f32) : sProp 𝕄 :=
  iprop(owns (c : Thread nD τ) (Memref.whole cc3_scratch0 : Memref sig .tc .vmem S2560x512 .f32) fullShare a ∗ Pipeline.scopedRestBut spec3 c [cc3_scratch0] ∗ (∃ r, prngReg c r))

-- The invariant: before point 0 what the region is entered with, later the accumulator at what the point before left.
def Phi3 (c : Dev nD) : (n : ℕ) → n ≤ cfg3.N → sProp 𝕄 :=
  accPhi (Pipeline.ΦA spec3 c) (fun a => owns (c : Thread nD τ) (Memref.whole cc3_scratch0 : Memref sig .tc .vmem S2560x512 .f32) fullShare a)
    iprop(Pipeline.scopedRestBut spec3 c [cc3_scratch0] ∗ (∃ r, prngReg c r)) fun t : Fin cfg3.N => accAt3 V c t.val t.isLt

theorem Phi3_succ (c : Dev nD) (n : ℕ) (hn : n < cfg3.N) :
    Phi3 V c (n + 1) hn = held3 c (accAt3 V c n hn) := rfl

theorem Phi3_pos (c : Dev nD) (n : ℕ) (h : n ≤ cfg3.N) (hz : n ≠ 0) :
    Phi3 V c n h = held3 c (accAt3 V c (n - 1) (by omega)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => outAt3 V c t
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = outAt3 V c t := by dsimp only [dat3]

theorem Phi3_some (c : Dev nD) (n : ℕ) (h : n ≤ cfg3.N) : Phi3 V c n h ⊢
    iprop((∃ a, owns (c : Thread nD τ) (Memref.whole cc3_scratch0 : Memref sig .tc .vmem S2560x512 .f32) fullShare a) ∗ Pipeline.scopedRestBut spec3 c [cc3_scratch0] ∗ (∃ r, prngReg c r)) :=
  accPhi_open _ (PhiA_split spec3 c cc3_scratch0 (scopedRest3_split c)).1 n h

theorem leaves3 (c : Dev nD) (w : Fin cfg3.W) (t : Fin cfg3.N) (h : cfg3.idle w (grid3.coords t) = false) :
    (dat3 V c).leavesExact w t = owns (c : Thread nD τ) ((cfg3.win w).stage (cfg3.slots t w)) fullShare ((dat3 V c).after w t) := by
  unfold Dat.leavesExact; rw [h]

-- Every input window's buffer holds the window's block at every point.
theorem before3 (c : Dev nD) (t : Fin cfg3.N) :
    (∀ d, (dat3 V c).before 0 t d = iblk3 V c 0 t) ∧ (∀ d, (dat3 V c).before 1 t d = iblk3 V c 1 t)
      ∧ (∀ d, (dat3 V c).before 2 t d = iblk3 V c 2 t) ∧ (∀ d, (dat3 V c).before 3 t d = iblk3 V c 3 t) := by
  refine ⟨?_, ?_, ?_, ?_⟩ <;> exact fun d =>
    ((dat3 V c).before_in_eq_fetched _ rfl (fun _ => rfl) (fun _ _ _ => rfl)
      (fun t => by dsimp only [dat3]; unfold Dat.blockOf iblk3; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [(before3 V c t).1, (before3 V c t).2.1, (before3 V c t).2.2.1, (before3 V c t).2.2.2]
  rw [show (dat3 V c).owesAt () t.succ = (dat3 V c).owesAt () t.castSucc from rfl]
  rw [show (dat3 V c).Φ t.succ = Phi3 V c (t.val + 1) t.isLt from rfl, Phi3_succ,
    show (dat3 V c).Φ t.castSucc = Phi3 V c t.val (Nat.le_of_lt t.isLt) from rfl]
  unfold held3
  rw [leaves3 V c 0 t rfl, leaves3 V c 1 t rfl, leaves3 V c 2 t rfl, leaves3 V c 3 t rfl, after3_0, after3_1, after3_2, after3_3]
  by_cases h0 : t.val % 8 = 0
  · have h7 : ¬t.val % 8 = 7 := by omega
    have hf : firstAt1 (grid3.coords t) := (hfirstAt1 t).mpr h0
    have hl : ¬lastAt1 (grid3.coords t) := fun h => h7 ((hlastAt1 t).mp h)
    rw [Dat.leavesExact_idle (dat3 V c) 4 t (idleAt3_4 t hl) (noFlush3_4 t hl), accAt3_first V c t h0]
    refine (sep_mono_left (Phi3_some V c _ _)).trans ?_
    iintro ⟨⟨⟨%a, HS⟩, HR, Hg⟩, Ho, ⟨%d0, H0⟩, ⟨%d1, H1⟩, ⟨%d2, H2⟩, ⟨%d3, H3⟩, H4⟩
    iapply (agg3_first c Set.univ (grid3.coords t) _ _ _ _ _ _ _ _ _ _ _ _ hf hl (cblk3 V c t) (hblk3 V c t) a _)
    iframe H0 H1 HS
    iintro ⟨H0, H1, HS⟩
    iframe
  · have hf : ¬firstAt1 (grid3.coords t) := fun h => h0 ((hfirstAt1 t).mp h)
    rw [Phi3_pos V c _ _ (fun e => h0 (by rw [e]))]
    unfold held3
    by_cases h7 : t.val % 8 = 7
    · have hl : lastAt1 (grid3.coords t) := (hlastAt1 t).mpr h7
      rw [leaves3 V c 4 t (liveAt3_4 t hl), after3_4]
      unfold outAt3
      rw [accAt3_next V c t h0]
      iintro ⟨⟨HS, HR, Hg⟩, Ho, ⟨%d0, H0⟩, ⟨%d1, H1⟩, ⟨%d2, H2⟩, ⟨%d3, H3⟩, ⟨%d4, H4⟩⟩
      iapply (agg3_last c Set.univ (grid3.coords t) _ _ _ _ _ _ _ _ _ _ _ _ hf hl (cblk3 V c t) (hblk3 V c t) (dblk3 V c t) (bblk3 V c t) _ _)
      iframe H0 H1 H2 H3 HS
      isplitl [H4]; · iexists _; iexact H4
      iintro ⟨H0, H1, H2, H3, H4, HS⟩
      iframe
    · have hl : ¬lastAt1 (grid3.coords t) := fun h => h7 ((hlastAt1 t).mp h)
      rw [Dat.leavesExact_idle (dat3 V c) 4 t (idleAt3_4 t hl) (noFlush3_4 t hl), accAt3_next V c t h0]
      iintro ⟨⟨HS, HR, Hg⟩, Ho, ⟨%d0, H0⟩, ⟨%d1, H1⟩, ⟨%d2, H2⟩, ⟨%d3, H3⟩, H4⟩
      iapply (agg3_next c Set.univ (grid3.coords t) _ _ _ _ _ _ _ _ _ _ _ _ hf hl (cblk3 V c t) (hblk3 V c t) _ _)
      iframe H0 H1 HS
      iintro ⟨H0, H1, HS⟩
      iframe

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := .rfl

theorem hout3 (c : Dev nD) : (dat3 V c).Φ (Fin.last cfg3.N) ⊢ (Pipeline.ΦA spec3 c : sProp 𝕄) :=
  (Phi3_some V c cfg3.N (Nat.le_refl _)).trans (PhiA_split spec3 c cc3_scratch0 (scopedRest3_split c)).2

end Cert.Kernel.Hand

end
-- ==== Proof.BitsRegion4.lean ====
import proofs.«417597_j20066087207444_2_alg».proof.Proof.BitsRegionLib

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev ablk4 (c : Dev nD) (t : Fin cfg4.N) : Vec F S2560x512 .bf16 := iblk4 V c 0 t
abbrev wblk4 (c : Dev nD) (t : Fin cfg4.N) : Vec F S512x128 .bf16 := iblk4 V c 1 t
abbrev bblk4 (c : Dev nD) (t : Fin cfg4.N) : Vec F S1x128 .f32 := iblk4 V c 2 t
abbrev sblk4 (c : Dev nD) (t : Fin cfg4.N) : Vec F S2560x1 .f32 := iblk4 V c 3 t

/-- The accumulator after point t: zeros plus the product of the point's row block with the weights. -/
def accAt4 (c : Dev nD) (t : Fin cfg4.N) : Vec F S2560x128 .f32 := k4_pay2 (k4_pay1 (F := F)) (ablk4 V c t) (wblk4 V c t)

/-- The output block after point t: the accumulator scaled row by row, the bias row added. -/
def outAt4 (c : Dev nD) (t : Fin cfg4.N) : Vec F S2560x128 .f32 := k4_pay3 (accAt4 V c t) (sblk4 V c t) (bblk4 V c t)

/-- Inputs are left at their blocks, the output at outAt4; the accumulator is carried at what the point before left. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => outAt4 V c t
  Φ t := accPhi (Pipeline.ΦA spec4 c) (owns c.tc (Memref.whole cc4_scratch0 : Memref sig .tc .vmem S2560x128 .f32) fullShare)
    iprop(Pipeline.scopedRestBut spec4 c [cc4_scratch0] ∗ ∃ r, prngReg c r) (accAt4 V c) t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_4 (c : Dev nD) (t : Fin cfg4.N) : (dat4 V c).after 4 t = outAt4 V c t := by dsimp only [dat4]

-- The contraction axis has one step, so every point both clears the accumulator and stores the output block.
theorem pts4 : ∀ t : Fin cfg4.N,
    isFirst (grid4.coords t) ∧ k4_cond2 (grid4.coords t) = 1#1 ∧ idle4 4 (grid4.coords t) = false := by decide +kernel

set_option maxHeartbeats 4000000 in
-- The body on whole buffers at such a point leaves the accumulator at 0 + a·w and the output at scale ⊙ (0 + a·w) + bias.
theorem sound_kernel4 : DenseTriple (F := F) cc4__dense_matmul_kernel k4_cond2 (k4_pay2 k4_pay1) k4_pay3 := by
  intro c i a3 h3 a4 h4 a5 h5 a6 h6 a7 h7 a8 h8 hfirst hlast xa xw xb xs K
  unfold owns
  iintro ⟨⟨%f3, %e3, H3⟩, ⟨%f4, %e4, H4⟩, ⟨%f5, %e5, H5⟩, ⟨%f6, %e6, H6⟩, ⟨%d7, %f7, -, H7⟩, ⟨%d8, %f8, -, H8⟩, Hk⟩
  subst e3 e4 e5 e6
  sl_unfold [cc4__dense_matmul_kernel]
  sl_exec (disch := first | exact hfirst | exact hlast)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (readLastWhole _ _ zeroOffs _ _ _).trans ?_
    sl_unfold_run_names
    simp only [View.readCov_cons_toLoadRect, readAtWhole a3.view f3 zeroOffs, readAtWhole a4.view f4 zeroOffs,
      readAtWhole a5.view f5 zeroOffs, readAtWhole a6.view f6 zeroOffs]
  iexists _; isplitr
  swap; · iexact H8
  ipureintro
  refine (readLastWhole _ _ zeroOffs _ _ _).trans ?_
  sl_unfold_run_names
  simp only [View.readCov_cons_toLoadRect, readAtWhole a3.view f3 zeroOffs, readAtWhole a4.view f4 zeroOffs]

-- Before the body at any point an input's contents are its block there: the body leaves inputs unchanged.
theorem found4 (c : Dev nD) (t : Fin cfg4.N) : ∀ (w : Fin cfg4.W) (hw : w.val < 4 := by decide) d,
    (dat4 V c).before w t d = (dat4 V c).fetched w t d
  | ⟨0, _⟩, _ | ⟨1, _⟩, _ | ⟨2, _⟩, _ | ⟨3, _⟩, _ => (dat4 V c).before_in_eq_fetched _ rfl (fun _ => rfl) (fun _ _ _ => rfl) (fun _ => rfl) t

-- The inputs' buffers hold their blocks and the invariant yields the accumulator at some contents, so the body's triple applies.
theorem body_obligation4 (c : Dev nD) : BodyObligation (dat4 (F := F) V c) (defs₀ (F := F)) Variants.none () Set.univ := fun t => by
  rw [bigSep_W4, bigSep_W4]
  simp only [(pts4 t).2.2]
  show _ ⊢ wp _ _ _ (bodyAt4 t) _
  exact dense_body sound_kernel4 c (pts4 t).1 (pts4 t).2.1 (xa := ablk4 V c t) (xw := wblk4 V c t) (xb := bblk4 V c t) (xs := sblk4 V c t)
    (found4 V c t 0) (found4 V c t 1) (found4 V c t 2) (found4 V c t 3) (accPhi_open (accAt4 V c) (PhiA_split spec4 c cc4_scratch0 (scopedRest4_split c)).1 t.val (Nat.le_of_lt t.isLt))

theorem hin4 (c : Dev nD) : (Pipeline.ΦA spec4 c : sProp 𝕄) ⊢ (dat4 V c).Φ 0 := .of_eq rfl

-- After the last point the accumulator's contents are forgotten.
theorem hout4 (c : Dev nD) : (dat4 V c).Φ (Fin.last cfg4.N) ⊢ (Pipeline.ΦA spec4 c : sProp 𝕄) :=
  (accPhi_open (accAt4 V c) (PhiA_split spec4 c cc4_scratch0 (scopedRest4_split c)).1 cfg4.N (Nat.le_refl _)).trans (PhiA_split spec4 c cc4_scratch0 (scopedRest4_split c)).2

end Cert.Kernel.Hand

end
-- ==== Proof.BitsFold.lean ====
import proofs.«417597_j20066087207444_2_alg».proof.Proof.Gen.Kernel.Regions
import proofs.«417597_j20066087207444_2_alg».proof.Proof.BitsRegion0
import proofs.«417597_j20066087207444_2_alg».proof.Proof.BitsRegion1
import proofs.«417597_j20066087207444_2_alg».proof.Proof.BitsRegion2
import proofs.«417597_j20066087207444_2_alg».proof.Proof.BitsRegion3
import proofs.«417597_j20066087207444_2_alg».proof.Proof.BitsRegion4

noncomputable section

namespace Cert.Kernel.Hand

open Idealize.ShloMosaic Idealize.ShloMosaic.TcCoe
open Idealize.SL Idealize.SL.BI
open scoped Idealize.SL.BI
open Idealize.SL.BI.BIBase
open Idealize.ShloMosaic.Pipeline (Dat)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) (c : Dev nD) (b : Ref sig .tc) : Buf (Elt F) ((c : Thread nD τ).loc b) := W c b

abbrev W3 : Dev nD → Valuation τ sig (Elt F) := fun c => V3 m c
abbrev U3 := atTc (W3 m)

-- After a region: its arrays at their final contents, every other buffer as the region found it.
def W4 (c : Dev nD) : Valuation τ sig (Elt F) :=
  Pipeline.withArrays spec0 c (W3 m c) fun w => (dat0 (U3 m) c).arrAt w cfg0.N
abbrev U4 := atTc (W4 m)
theorem W4_arr (c : Dev nD) (w : Fin cfg0.W) :
    W4 m c (Proc.devRef .tc (Pipeline.arrRef spec0 w)) = (dat0 (U3 m) c).arrAt w cfg0.N :=
  Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) :=
  Pipeline.withArrays_of_ne spec0 c _ _ b hb
theorem W4_in (c : Dev nD) (w : Fin cfg0.W) (hw : (cfg0.win w).isOut = false) :
    W4 m c (Proc.devRef .tc (Pipeline.arrRef spec0 w)) = W3 m c (Proc.devRef .tc (Pipeline.arrRef spec0 w)) :=
  (W4_arr m c w).trans (((dat0 (U3 m) c).arrAt_in w hw _).trans (A_eq0 (U3 m) c w))

def W5 (c : Dev nD) : Valuation τ sig (Elt F) :=
  Pipeline.withArrays spec1 c (W4 m c) fun w => (dat1 (U4 m) c).arrAt w cfg1.N
abbrev U5 := atTc (W5 m)
theorem W5_arr (c : Dev nD) (w : Fin cfg1.W) :
    W5 m c (Proc.devRef .tc (Pipeline.arrRef spec1 w)) = (dat1 (U4 m) c).arrAt w cfg1.N :=
  Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) :=
  Pipeline.withArrays_of_ne spec1 c _ _ b hb
theorem W5_in (c : Dev nD) (w : Fin cfg1.W) (hw : (cfg1.win w).isOut = false) :
    W5 m c (Proc.devRef .tc (Pipeline.arrRef spec1 w)) = W4 m c (Proc.devRef .tc (Pipeline.arrRef spec1 w)) :=
  (W5_arr m c w).trans (((dat1 (U4 m) c).arrAt_in w hw _).trans (A_eq1 (U4 m) c w))

def W6 (c : Dev nD) : Valuation τ sig (Elt F) :=
  Pipeline.withArrays spec2 c (W5 m c) fun w => (dat2 (U5 m) c).arrAt w cfg2.N
abbrev U6 := atTc (W6 m)
theorem W6_arr (c : Dev nD) (w : Fin cfg2.W) :
    W6 m c (Proc.devRef .tc (Pipeline.arrRef spec2 w)) = (dat2 (U5 m) c).arrAt w cfg2.N :=
  Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) :=
  Pipeline.withArrays_of_ne spec2 c _ _ b hb
theorem W6_in (c : Dev nD) (w : Fin cfg2.W) (hw : (cfg2.win w).isOut = false) :
    W6 m c (Proc.devRef .tc (Pipeline.arrRef spec2 w)) = W5 m c (Proc.devRef .tc (Pipeline.arrRef spec2 w)) :=
  (W6_arr m c w).trans (((dat2 (U5 m) c).arrAt_in w hw _).trans (A_eq2 (U5 m) c w))

def W7 (c : Dev nD) : Valuation τ sig (Elt F) :=
  Pipeline.withArrays spec3 c (W6 m c) fun w => (dat3 (U6 m) c).arrAt w cfg3.N
abbrev U7 := atTc (W7 m)
theorem W7_arr (c : Dev nD) (w : Fin cfg3.W) :
    W7 m c (Proc.devRef .tc (Pipeline.arrRef spec3 w)) = (dat3 (U6 m) c).arrAt w cfg3.N :=
  Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) :=
  Pipeline.withArrays_of_ne spec3 c _ _ b hb

def W8 (c : Dev nD) : Valuation τ sig (Elt F) :=
  Pipeline.withArrays spec4 c (W7 m c) fun w => (dat4 (U7 m) c).arrAt w cfg4.N
abbrev U8 := atTc (W8 m)
theorem W8_arr (c : Dev nD) (w : Fin cfg4.W) :
    W8 m c (Proc.devRef .tc (Pipeline.arrRef spec4 w)) = (dat4 (U7 m) c).arrAt w cfg4.N :=
  Pipeline.withArrays_arr spec4 launch4.win.arr_inj c _ _ w
theorem W8_of_ne (c : Dev nD) (b : Ref sig .tc) (hb : ∀ w, Pipeline.arrRef spec4 w ≠ b) :
    W8 m c (Proc.devRef .tc b) = W7 m c (Proc.devRef .tc b) :=
  Pipeline.withArrays_of_ne spec4 c _ _ b hb

abbrev W9 : Dev nD → Valuation τ sig (Elt F) := fun c => StableHlo.after hostOps5 (W8 m c)

def pdats : (p : Fin 5) → (c : Dev nD) → Dat τ (Elt F) Unit ℕ (UR sig nD τ) ℕ (Pipeline.pin (pcfgs (F := F)) adm p) c
  | ⟨0, _⟩ => fun c => dat0 (U3 m) c
  | ⟨1, _⟩ => fun c => dat1 (U4 m) c
  | ⟨2, _⟩ => fun c => dat2 (U5 m) c
  | ⟨3, _⟩ => fun c => dat3 (U6 m) c
  | ⟨4, _⟩ => fun c => dat4 (U7 m) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.BitsSeg.lean ====
import proofs.«417597_j20066087207444_2_alg».proof.Proof.BitsFold

noncomputable section

namespace Cert.Kernel.Hand

open Idealize.ShloMosaic Idealize.ShloMosaic.TcCoe
open Idealize.SL Idealize.SL.RA Idealize.SL.BI
open scoped Idealize.SL.BI
open Idealize.SL.BI.BIBase Idealize.SL.ProofMode
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

-- Region p changes its own arrays and nothing else.
set_option backward.isDefEq.respectTransparency.types false in
def regOf (p : Fin 5) (lf : Pipeline.LaunchFacts (nD := nD) (τ := τ) cfgs p) (V : Dev nD → Valuation τ sig (Elt F))
    (hA : ∀ c w, (pdats m p c).A w = V c (Proc.devRef .tc (Pipeline.arrRef (cfgs p).spec w)))
    (hbody : ∀ c, Pipeline.BodyObligation (pdats m p c) (defs₀ (F := F)) 𝒱₀ () Set.univ)
    (hin : ∀ c, (Pipeline.ΦA (cfgs p).spec c : sProp 𝕄) ⊢ (pdats m p c).Φ 0)
    (hout : ∀ c, (pdats m p c).Φ (Fin.last (cfgs p).N) ⊢ (Pipeline.ΦA (cfgs p).spec c : sProp 𝕄))
    (hq : ∀ c w, (pdats m p c).q w = fullShare := by exact fun _ _ => rfl)
    (howed : ∀ c t, (pdats m p c).owed t = 0 := by exact fun _ _ => rfl)
    (hrec : ∀ c, (pdats m p c).recorded 0 = Set.univ := by exact fun _ => rfl) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig)
    (Pipeline.withArrays (cfgs p).spec c (V c) ((pdats m p c).arrAt · (cfgs p).N)) ∗ R c)
  X c := iprop(∃ r, prngReg c r)
  Y c := iprop(∃ r, prngReg c r)
  Z c := Pipeline.unscopedRest (Ix := Unit) (Name := ℕ) (U := UR sig nD τ) (Lvl := ℕ) (cfgs p).spec c (V c ·)
  hentry c := by
    have hsplit := Pipeline.arrays_of_unscopedBufs (p := p) (pcfgs (F := F)) adm (pdats m) lf.win lf.arr_whole c
      ((pdats m p c).share_full (hq c)) (V c ·) (hA c)
    rw [Pipeline.unscopedBufs_held] at hsplit
    unfold Pipeline.Dat.owesAt Pipeline.owesWithin Pipeline.prefHeld
    rw [howed, Pipeline.Dat.bound, hrec, show (Finset.univ : Finset (Fin 0)) = ∅ from rfl, BI.bigSep_empty]
    iintro ⟨⟨Hub, Hp, %W, HO⟩, -⟩
    icases hsplit $$ Hub with ⟨Ha, Hrest⟩
    imodintro
    iframe Ha Hp Hrest
    isplitr; · iempintro
    iexists W; iframe HO
    ipureintro; exact fun _ _ => Or.inl trivial
  hin c := .trans (by unfold Pipeline.ΦA; iintro ⟨Hp, -, Hr⟩; iframe Hp Hr) (hin c)
  hout c := (hout c).trans (by rw [Pipeline.ownSems0_none]; unfold Pipeline.ΦA; iintro ⟨Hr, Hp⟩; iframe Hp Hr; iempintro)
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c)) (V c ·)
      (Pipeline.withArrays (cfgs p).spec c (V c) ((pdats m p c).arrAt · (cfgs p).N) ·) ((pdats m p c).arrAt · (cfgs p).N)
      (fun w => (Pipeline.withArrays_arr _ lf.win.arr_inj c (V c) ((pdats m p c).arrAt · (cfgs p).N) w).symm)
      (fun b hb => Pipeline.withArrays_of_ne _ c (V c) ((pdats m p c).arrAt · (cfgs p).N) b fun w e => hb (Finset.mem_image.mpr ⟨w, Finset.mem_univ _, e⟩))
    rw [Pipeline.unscopedBufs_held] at hjoin
    unfold Pipeline.Dat.owesAt Pipeline.owesWithin
    rw [howed]
    iintro ⟨Ha, ⟨%W, -, HO⟩, HY, Hrest⟩
    imodintro
    isplitl [Ha Hrest]
    · iapply hjoin; iframe Ha Hrest
    isplitl [HY]; · iexact HY
    iexists W; iexact HO

def reg0 := regOf m 0 launch0 (W3 m) (A_eq0 (U3 m)) (body_obligation0 (U3 m)) (hin0 (U3 m)) (hout0 (U3 m))
def reg1 := regOf m 1 launch1 (W4 m) (A_eq1 (U4 m)) (body_obligation1 (U4 m)) (hin1 (U4 m)) (hout1 (U4 m))
def reg2 := regOf m 2 launch2 (W5 m) (A_eq2 (U5 m)) (body_obligation2 (U5 m)) (hin2 (U5 m)) (hout2 (U5 m))
def reg3 := regOf m 3 launch3 (W6 m) (A_eq3 (U6 m)) (body_obligation3 (U6 m)) (hin3 (U6 m)) (hout3 (U6 m))
def reg4 := regOf m 4 launch4 (W7 m) (A_eq4 (U7 m)) (body_obligation4 (U7 m)) (hin4 (U7 m)) (hout4 (U7 m))

end Cert.Kernel.Hand

end
-- ==== Proof.BitsRun.lean ====
import proofs.«417597_j20066087207444_2_alg».proof.Proof.BitsSeg

set_option maxRecDepth 16384

noncomputable section

namespace Cert.Kernel.Hand

open Idealize.ShloMosaic Idealize.ShloMosaic.TcCoe Idealize.ShloMosaic.Tactic
open Idealize.SL Idealize.SL.BI
open scoped Idealize.SL.BI
open Idealize.SL.BI.BIBase Idealize.SL.ProofMode
open Idealize.ShloMosaic.Rounds
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev mainSegs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (reg0 m), .region (reg1 m), .region (reg2 m), .region (reg3 m), .region (reg4 m),
    .host (hseg hostOps5 hostOps5_sub hostOps5_fresh (W8 m)) ]

theorem main_run (c : Dev nD) : main (F := F) c = Pipeline.Seg.run (mainSegs m) := (main_chain c).trans (by chain_rfl)

-- The nine items chain, each entered from what the one before left.
set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => BI.emp)
    (u₀ := initOf _ _)
    (hu₀ := by
      rw [BI.bigSep_emp_const]
      refine .trans ?_ fupd_intro
      exact sep_emp_intro)
    (T₀ := fun c => iprop(StableHlo.held (c : Thread nD τ) (Pipeline.ucRefs τ sig) (V0 m c) ∗ R c))
    (Tₙ := fun c => iprop(StableHlo.held (c : Thread nD τ) (Pipeline.ucRefs τ sig) (W9 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => sep_assoc'⟩)
    (hinit := by
      refine Pipeline.initEach L lv fun c => ?_
      rw [show unscopedBufs c (fun b => m ((c : Thread nD τ).loc b)) = _ from Pipeline.unscopedBufs_held c (V0 m c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      iframe Hh HSI)
    (hQ := fun _ h => h)

-- A buffer that no item writes ends as launched.
theorem kept {s : MemSt nD τ sig (Elt F)} (h : ∀ c : Dev nD, ∀ b ∈ Pipeline.ucRefs τ sig, s.mem (((c : Thread nD τ)).1, b) = W9 m c b)
    (c : Dev nD) (b : Ref sig .tc)
    (hb : ¬ (Proc.devRef .tc b : DevRef τ sig).isScoped ∧ b ∉ hostOps5_W ∧ (∀ w, Pipeline.arrRef spec4 w ≠ b)
      ∧ (∀ w, Pipeline.arrRef spec3 w ≠ b) ∧ (∀ w, Pipeline.arrRef spec2 w ≠ b) ∧ (∀ w, Pipeline.arrRef spec1 w ≠ b)
      ∧ (∀ w, Pipeline.arrRef spec0 w ≠ b) ∧ b ∉ hostOps0_2_W ∧ b ∉ hostOps0_1_W ∧ b ∉ hostOps0_W) :
    s.mem ((c.tc : Thread nD τ).loc b) = m ((c.tc : Thread nD τ).loc b) := by
  obtain ⟨hs, h5, a4, a3, a2, a1, a0, g2, g1, g0⟩ := hb
  exact (h c _ (mem_uc b hs)).trans <| (StableHlo.after_of_writes_sub hostOps5 _ hostOps5_writes h5).trans <|
    (W8_of_ne m c b a4).trans <| (W7_of_ne m c b a3).trans <| (W6_of_ne m c b a2).trans <| (W5_of_ne m c b a1).trans <|
    (W4_of_ne m c b a0).trans <| (V3_of m c b g2).trans <| (V2_of m c b g1).trans (V1_of m c b g0)

theorem run_value : θ_run defs (onTc (τ := τ) (main (F := F))) ⟨m, fun _ => 0, ρ⟩ (fun r => ∀ c : Dev nD,
      r.2.mem ((c.tc : Thread nD τ).loc main_v62) = W9 m c main_v62
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v62 (by decide)), kept m h c main_arg0 (by decide), kept m h c main_arg1 (by decide),
     kept m h c main_arg2 (by decide), kept m h c main_arg3 (by decide), kept m h c main_arg4 (by decide),
     kept m h c main_arg5 (by decide), kept m h c main_arg6 (by decide), kept m h c main_arg7 (by decide)⟩)
    (run_all m ρ)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_value m ρ)

end Cert.Kernel.Hand

end
-- ==== Proof.Spec.lean ====
import Idealize.ShloMosaic.PureOps.Ideal
import Idealize.ShloMosaic.Lib.ValueIdx

noncomputable section

namespace Cert.Spec

open Idealize.ShloMosaic Idealize.ShloMosaic.ValueIdx Finset

-- An index word read as a node: read signed and clamped into the node range.
def node (w : BitVec 32) : Fin 10000 := ⟨min w.toInt.toNat 9999, by omega⟩

def srcOf (ei : (⟨2, ![2, 160000]⟩ : Shape).Idx → BitVec 32) (e : Fin 160000) : Fin 10000 := node (ei (ix2 (0 : Fin 2) e))

def dstOf (ei : (⟨2, ![2, 160000]⟩ : Shape).Idx → BitVec 32) (e : Fin 160000) : Fin 10000 := node (ei (ix2 (1 : Fin 2) e))

def InRange (ei : (⟨2, ![2, 160000]⟩ : Shape).Idx → BitVec 32) : Prop :=
  ∀ (r : Fin 2) (e : Fin 160000), 0 ≤ (ei (ix2 r e)).toInt ∧ (ei (ix2 r e)).toInt < 10000

def IsReal {ι : Type} (a : ι → EReal) : Prop := ∀ i, ∃ r : ℝ, a i = (r : EReal)

variable (src dst : Fin 160000 → Fin 10000)

-- The degree of node i with its self-loop: one per edge ending in i, plus one.
def deg (i : Fin 10000) : EReal := (0 + ∑ _e ∈ univ.filter (fun e => dst e = i), (1 : EReal)) + 1

def dinv (i : Fin 10000) : EReal := Ideal.rsqrt (deg dst i)

def lin {K M : Nat} (h : Fin 10000 → Fin K → EReal) (W : Fin K → Fin M → EReal) (i : Fin 10000) (o : Fin M) : EReal :=
  ∑ k : Fin K, h i k * W k o

-- One convolution with normalised adjacency and self-loops, then max(., 0), at node i and column o.
def conv (h : Fin 10000 → Fin 512 → EReal) (W : Fin 512 → Fin 512 → EReal) (b : Fin 512 → EReal)
    (i : Fin 10000) (o : Fin 512) : EReal :=
  max (((0 + ∑ e ∈ univ.filter (fun e => dst e = i), (dinv dst (src e) * dinv dst (dst e)) * lin h W (src e) o)
        + (dinv dst i * dinv dst i) * lin h W i o) + b o) 0

-- The network: two convolutions, then the linear head.
def out (x : Fin 10000 → Fin 512 → EReal) (W1 : Fin 512 → Fin 512 → EReal) (b1 : Fin 512 → EReal)
    (W2 : Fin 512 → Fin 512 → EReal) (b2 : Fin 512 → EReal) (Wl : Fin 512 → Fin 16 → EReal) (bl : Fin 16 → EReal)
    (i : Fin 10000) (o : Fin 16) : EReal :=
  lin (conv src dst (conv src dst x W1 b1) W2 b2) Wl i o + bl o

end Cert.Spec

end
-- ==== Proof.LibGatherRows.lean ====
import Idealize.ShloMosaic.PureOps
import Idealize.ShloMosaic.Lib.ValueIdx

noncomputable section

namespace Cert.LibGatherRows

open Idealize.ShloMosaic Idealize.ShloMosaic.ValueIdx

abbrev rowTakeDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

-- The operand index of result (r, j): on the rows the clamped start index of r alone, on the columns j alone.
theorem gather_rows_apply {α : Type} {N D R w : Nat}
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (j : Fin D) (n : Fin N)
    (hn : n.val = min (idx (ix2 r (0 : Fin 1))).toInt.toNat (N - 1)) :
    Host.gather (rowTakeDims N D R wf) x idx (ix2 r j) = x (ix2 n j) := by
  unfold Host.gather
  congr 1
  funext a
  refine Fin.ext ?_
  match a with
  | ⟨0, _⟩ =>
    exact (congrArg (fun k => min (idx k).toInt.toNat (N - 1))
      (funext fun | ⟨0, _⟩ => rfl | ⟨1, _⟩ => rfl :
        (rowTakeDims N D R wf).siIdx (ix2 r j) ⟨0, Nat.one_pos⟩ = ix2 r (0 : Fin 1))).trans hn.symm
  | ⟨1, _⟩ =>
    show 0 + 0 + j.val = j.val
    omega

end Cert.LibGatherRows

end
-- ==== Proof.LibScatterFold.lean ====
import Idealize.ShloMosaic.PureOps
import Mathlib.Algebra.BigOperators.Group.Finset.Basic
import Mathlib.Data.Fintype.Basic
import Mathlib.Data.BitVec

namespace Cert.LibScatterFold

open Idealize.ShloMosaic

variable {ι α : Type}

theorem foldl_last_const (v : ι → α) (c : α) :
    ∀ (L : List ι) (a : α), (∀ n ∈ L, v n = c) → L ≠ [] → L.foldl (fun _ n => v n) a = c
  | [], _, _, h => absurd rfl h
  | [n], _, hall, _ => hall n (List.mem_singleton_self n)
  | n :: m :: L, _, hall, _ =>
    foldl_last_const v c (m :: L) (v n) (fun k hk => hall k (List.mem_cons_of_mem _ hk)) (List.cons_ne_nil _ _)

theorem foldl_add_eq [AddMonoid α] (v : ι → α) :
    ∀ (L : List ι) (a : α), L.foldl (fun a n => a + v n) a = a + (L.map v).sum
  | [], a => (add_zero a).symm
  | n :: L, a => by rw [List.foldl_cons, foldl_add_eq v L, List.map_cons, List.sum_cons, add_assoc]

variable {s si u : Shape} {w : Nat}

-- An update lands at i exactly when start plus window coordinate is i's coordinate on every axis.
theorem resultIdx?_eq_some_iff (d : ScatterDims s si u) (j : u.Idx) (idx : IVec si w) (i : s.Idx) :
    d.resultIdx? j idx = some i ↔ ∀ a, d.start j idx a + (d.window j a : ℤ) = ((i a).val : ℤ) := by
  unfold ScatterDims.resultIdx?
  split_ifs with h
  · rw [Option.some.injEq, funext_iff]
    refine forall_congr' fun a => ?_
    rw [Fin.ext_iff]
    have := (h a).1
    show (d.start j idx a + (d.window j a : ℤ)).toNat = (i a).val ↔ _
    omega
  · refine ⟨fun h' => (nomatch h'), fun h' => absurd (fun a => ?_) h⟩
    have := (i a).isLt
    rw [h' a]
    constructor <;> omega

-- Seen from one element, the scatter is the fold of the body over the updates that land on it, in row-major order.
theorem scatter_apply_fold (d : ScatterDims s si u) (f : α → α → α) (x : s.Idx → α) (idx : IVec si w)
    (upd : u.Idx → α) (i : s.Idx) :
    Host.scatter d f x idx upd i
      = ((List.finRange u.numel).filter (fun n => d.resultIdx? (u.rowMajor.symm n) idx = some i)).foldl
          (fun a n => f a (upd (u.rowMajor.symm n))) (x i) := by
  unfold Host.scatter
  generalize List.finRange u.numel = L
  induction L generalizing x with
  | nil => rfl
  | cons n L ih =>
    rw [List.foldl_cons, ih]
    cases hg : d.resultIdx? (u.rowMajor.symm n) idx with
    | none => rw [List.filter_cons_of_neg (by simp [hg])]
    | some i₁ =>
      by_cases h : i₁ = i
      · subst h
        rw [List.filter_cons_of_pos (by simp [hg]), List.foldl_cons]
        simp
      · rw [List.filter_cons_of_neg (by simp [hg, h])]
        simp [Ne.symm h]

theorem scatter_set_apply_of_unique (d : ScatterDims s si u) (x : s.Idx → α) (idx : IVec si w)
    (upd : u.Idx → α) (i : s.Idx) (j₀ : u.Idx) (h : ∀ j, d.resultIdx? j idx = some i ↔ j = j₀) :
    Host.scatter d (fun _ b => b) x idx upd i = upd j₀ := by
  rw [scatter_apply_fold]
  exact foldl_last_const (fun n => upd (u.rowMajor.symm n)) (upd j₀) _ _
    (fun n hn => congrArg upd ((h _).1 (of_decide_eq_true (List.mem_filter.1 hn).2)))
    (List.ne_nil_of_mem (a := u.rowMajor j₀) (List.mem_filter.2 ⟨List.mem_finRange _, by simpa using (h j₀).2 rfl⟩))

theorem scatter_addi_apply (d : ScatterDims s si u) (x : s.Idx → BitVec 32) (idx : IVec si w)
    (upd : u.Idx → BitVec 32) (i : s.Idx) :
    Host.scatter d IntOp.addi x idx upd i
      = x i + ∑ j ∈ Finset.univ.filter (fun j : u.Idx => d.resultIdx? j idx = some i), upd j := by
  rw [scatter_apply_fold]
  show List.foldl (fun a n => a + upd (u.rowMajor.symm n)) (x i) _ = _
  rw [foldl_add_eq (fun n => upd (u.rowMajor.symm n)),
    ← List.sum_toFinset _ ((List.nodup_finRange _).filter _), List.toFinset_filter, List.toFinset_finRange]
  refine congrArg _ (Finset.sum_equiv u.rowMajor.symm (fun n => ?_) (fun n _ => rfl))
  simp

-- From a zero element and updates all one, word addition counts the updates that land.
theorem scatter_addi_count_toInt (d : ScatterDims s si u) (x : s.Idx → BitVec 32) (idx : IVec si w)
    (upd : u.Idx → BitVec 32) (i : s.Idx) (hx : x i = 0#32) (hupd : ∀ j, upd j = 1#32)
    (hcard : (Finset.univ.filter (fun j : u.Idx => d.resultIdx? j idx = some i)).card < 2 ^ 31) :
    (Host.scatter d IntOp.addi x idx upd i).toInt
      = ((Finset.univ.filter (fun j : u.Idx => d.resultIdx? j idx = some i)).card : ℤ) := by
  have h : (Host.scatter d IntOp.addi x idx upd i).toNat
      = (Finset.univ.filter (fun j : u.Idx => d.resultIdx? j idx = some i)).card := by
    rw [scatter_addi_apply, hx, Finset.sum_congr rfl (fun j _ => hupd j), Finset.sum_const, nsmul_eq_mul,
      BitVec.natCast_eq_ofNat, BitVec.mul_one, BitVec.zero_add, BitVec.toNat_ofNat, Nat.mod_eq_of_lt (by omega)]
  rw [BitVec.toInt_eq_toNat_of_lt (by omega), h]

end Cert.LibScatterFold
-- ==== Proof.LibScatterIdx.lean ====
import Idealize.ShloMosaic.PureOps
import Idealize.ShloMosaic.Lib.ValueIdx
import Idealize.ShloMosaic.Lib.ValueIdxRank1
import Idealize.ShloMosaic.PureOps.Ideal
import Mathlib.Algebra.BigOperators.Group.Finset.Defs
import proofs.«417597_j20066087207444_2_alg».proof.Proof.LibScatterFold

noncomputable section

open scoped BigOperators

namespace Cert.LibScatterIdx

open Idealize.ShloMosaic Idealize.ShloMosaic.ValueIdx Cert.LibScatterFold

abbrev rowsAddDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section RowsAdd
variable {N C E w : Nat} (wf : ScatterDims.WF ⟨2, ![N, C]⟩ ⟨2, ![E, 1]⟩ ⟨2, ![E, C]⟩ [1] [0] [0] 1)

-- Update j lands at (i, o) exactly when its row's scatter index reads i and its column is o.
theorem rowsAdd_resultIdx (idx : IVec ⟨2, ![E, 1]⟩ w) (j : (⟨2, ![E, C]⟩ : Shape).Idx) (i : Fin N) (o : Fin C) :
    (rowsAddDims N C E wf).resultIdx? j idx = some (ix2 i o)
      ↔ (idx (ix2 (j 0) (0 : Fin 1))).toInt = (i.val : ℤ) ∧ (j 1).val = o.val := by
  have h0 : (rowsAddDims N C E wf).start j idx 0 = (idx (ix2 (j 0) (0 : Fin 1))).toInt :=
    congrArg (fun k => (idx k).toInt) (funext fun | ⟨0, _⟩ => rfl | ⟨1, _⟩ => rfl)
  rw [resultIdx?_eq_some_iff, Fin.forall_fin_two, h0]
  show _ + ((0 : ℕ) : ℤ) = (i.val : ℤ) ∧ (0 : ℤ) + ((j 1).val : ℤ) = (o.val : ℤ) ↔ _
  omega

theorem scatterAdd_rows_apply {φ : FTy} (x : FVec Ideal ⟨2, ![N, C]⟩ φ) (idx : IVec ⟨2, ![E, 1]⟩ w)
    (upd : FVec Ideal ⟨2, ![E, C]⟩ φ) (i : Fin N) (o : Fin C) :
    Host.scatterAdd (F := Ideal) (rowsAddDims N C E wf) x idx upd (ix2 i o)
      = x (ix2 i o) + ∑ e ∈ Finset.univ.filter (fun e : Fin E => (idx (ix2 e (0 : Fin 1))).toInt = (i.val : ℤ)),
          upd (ix2 e o) := by
  have hr := fun j (hj : j ∈ Finset.univ.filter fun j => (rowsAddDims N C E wf).resultIdx? j idx = some (ix2 i o)) =>
    (rowsAdd_resultIdx wf idx j i o).1 (Finset.mem_filter.1 hj).2
  have hb := fun j hj => ((eq_ix2 j).trans (congrArg (ix2 (j 0)) (Fin.ext (hr j hj).2))).symm
  exact congrArg (x (ix2 i o) + ·) (Finset.sum_nbij' (fun j => j 0) (fun e => ix2 e o)
    (fun j hj => Finset.mem_filter.2 ⟨Finset.mem_univ _, (hr j hj).1⟩)
    (fun e he => Finset.mem_filter.2 ⟨Finset.mem_univ _,
      (rowsAdd_resultIdx wf idx _ i o).2 ⟨(Finset.mem_filter.1 he).2, rfl⟩⟩)
    hb (fun _ _ => rfl) fun j hj => congrArg upd (hb j hj).symm)

end RowsAdd

abbrev pointsDims (N M E : Nat)
    (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

-- Update e lands at (i, j) exactly when its two scatter index words read i and j.
theorem points_resultIdx {N M E w : Nat} (wf : ScatterDims.WF ⟨2, ![N, M]⟩ ⟨2, ![E, 2]⟩ ⟨1, ![E]⟩ [] [0, 1] [0, 1] 1)
    (idx : IVec ⟨2, ![E, 2]⟩ w) (e : Fin E) (i : Fin N) (j : Fin M) :
    (pointsDims N M E wf).resultIdx? (ix1 e) idx = some (ix2 i j)
      ↔ (idx (ix2 e (0 : Fin 2))).toInt = (i.val : ℤ) ∧ (idx (ix2 e (1 : Fin 2))).toInt = (j.val : ℤ) := by
  have h0 : (pointsDims N M E wf).start (ix1 e) idx 0 = (idx (ix2 e (0 : Fin 2))).toInt :=
    congrArg (fun k => (idx k).toInt) (funext fun | ⟨0, _⟩ => rfl | ⟨1, _⟩ => rfl)
  have h1 : (pointsDims N M E wf).start (ix1 e) idx 1 = (idx (ix2 e (1 : Fin 2))).toInt :=
    congrArg (fun k => (idx k).toInt) (funext fun | ⟨0, _⟩ => rfl | ⟨1, _⟩ => rfl)
  rw [resultIdx?_eq_some_iff, Fin.forall_fin_two, h0, h1]
  show _ + ((0 : ℕ) : ℤ) = (i.val : ℤ) ∧ _ + ((0 : ℕ) : ℤ) = (j.val : ℤ) ↔ _
  omega

abbrev vecAddDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecAdd
variable {N E w : Nat} (wf : ScatterDims.WF ⟨1, ![N]⟩ ⟨2, ![E, 1]⟩ ⟨1, ![E]⟩ [] [0] [0] 1)

-- Update j lands at i exactly when its scatter index reads i.
theorem vecAdd_resultIdx (idx : IVec ⟨2, ![E, 1]⟩ w) (j : (⟨1, ![E]⟩ : Shape).Idx) (i : Fin N) :
    (vecAddDims N E wf).resultIdx? j idx = some (ix1 i) ↔ (idx (ix2 (j 0) (0 : Fin 1))).toInt = (i.val : ℤ) := by
  have h0 : (vecAddDims N E wf).start j idx 0 = (idx (ix2 (j 0) (0 : Fin 1))).toInt :=
    congrArg (fun k => (idx k).toInt) (funext fun | ⟨0, _⟩ => rfl | ⟨1, _⟩ => rfl)
  rw [resultIdx?_eq_some_iff, Fin.forall_fin_one, h0]
  show _ + ((0 : ℕ) : ℤ) = (i.val : ℤ) ↔ _
  omega

theorem scatterAdd_vec_apply {φ : FTy} (x : FVec Ideal ⟨1, ![N]⟩ φ) (idx : IVec ⟨2, ![E, 1]⟩ w)
    (upd : FVec Ideal ⟨1, ![E]⟩ φ) (i : Fin N) :
    Host.scatterAdd (F := Ideal) (vecAddDims N E wf) x idx upd (ix1 i)
      = x (ix1 i) + ∑ e ∈ Finset.univ.filter (fun e : Fin E => (idx (ix2 e (0 : Fin 1))).toInt = (i.val : ℤ)),
          upd (ix1 e) := by
  refine congrArg (x (ix1 i) + ·) (Finset.sum_equiv idxEquiv1 (fun j => ?_) fun j _ => congrArg upd (eq_ix1 j))
  simp only [Finset.mem_filter, Finset.mem_univ, true_and, vecAdd_resultIdx]
  rfl

end VecAdd

end Cert.LibScatterIdx

end
-- ==== Proof.RefValue.lean ====
import proofs.«417597_j20066087207444_2_alg».proof.Proof.Gen.ReferenceIdeal.Run
import proofs.«417597_j20066087207444_2_alg».proof.Proof.Gen.ReferenceIdeal.Read
import proofs.«417597_j20066087207444_2_alg».proof.Proof.Spec
import proofs.«417597_j20066087207444_2_alg».proof.Proof.LibGatherRows
import proofs.«417597_j20066087207444_2_alg».proof.Proof.LibScatterIdx
import Idealize.ShloMosaic.Lib.IdealHost
import Idealize.ShloMosaic.Lib.StableHlo.Predicate

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec Cert.LibScatterIdx Cert.LibGatherRows

-- A gather from a vector over the nodes reads it at the node of the start index.
theorem vec_gather_read {α : Type} (x : S10000.Idx → α) (idx : IVec S160000x1 32) (e : Fin 160000) :
    Host.gather gather_S10000_S160000x1_S160000_n_0_n_n_0_1_1 x idx (ix1 e)
      = x (ix1 (node (idx (ix2 e (0 : Fin 1))))) := by
  have h := Predicate.gather_take gather_S10000_S160000x1_S160000_n_0_n_n_0_1_1 rfl rfl rfl rfl x idx e (by decide)
  simp only [show Predicate.ixP e = ix2 e (0 : Fin 1) from funext (fun | ⟨0, _⟩ => rfl | ⟨1, _⟩ => rfl)] at h
  rw [Shape.Idx.eq_ofFin (ix1 e)]
  exact h.trans (congrArg x (Shape.Idx.eq_ofFin (ix1 (node _))).symm)

variable (x0 : (⟨S10000x512, .f32⟩ : BufTy).Contents (Elt Ideal)) (x1 : (⟨S2x160000, .i32⟩ : BufTy).Contents (Elt Ideal))
  (x2 : (⟨S512x512, .f32⟩ : BufTy).Contents (Elt Ideal)) (x3 : (⟨S512, .f32⟩ : BufTy).Contents (Elt Ideal))
  (x4 : (⟨S512x512, .f32⟩ : BufTy).Contents (Elt Ideal)) (x5 : (⟨S512, .f32⟩ : BufTy).Contents (Elt Ideal))
  (x6 : (⟨S512x16, .f32⟩ : BufTy).Contents (Elt Ideal)) (x7 : (⟨S16, .f32⟩ : BufTy).Contents (Elt Ideal))

theorem src_row (k : S160000.Idx) : val_main_v1 (F := Ideal) x1 k = x1 (ix2 (0 : Fin 2) (k 0)) := by
  rw [val_main_v1_apply, val_main_v0_apply]
  exact congrArg x1 (funext fun | ⟨0, _⟩ => rfl | ⟨1, _⟩ => Fin.ext (Nat.mod_eq_of_lt (k 0).isLt))

theorem dst_row (k : S160000.Idx) : val_main_v3 (F := Ideal) x1 k = x1 (ix2 (1 : Fin 2) (k 0)) := by
  rw [val_main_v3_apply, val_main_v2_apply]
  exact congrArg x1 (funext fun | ⟨0, _⟩ => rfl | ⟨1, _⟩ => Fin.ext (Nat.mod_eq_of_lt (k 0).isLt))

-- A word of the edge list is not negative, so the select that wraps negative words returns it.
theorem keep_word (hin : InRange x1) (r : Fin 2) (e : Fin 160000) (w : BitVec 32) (hw : w = x1 (ix2 r e)) :
    Scalar.select (IntOp.cmpi .slt w 0#32) (IntOp.addi w 10000#32) w = x1 (ix2 r e) := by
  subst hw
  rw [eq_zero_of_ne_one (mt IntOp.cmpi_slt.1 (by rw [BitVec.toInt_zero]; exact Int.not_lt.2 (hin r e).1)), select_zero]

theorem col_deg (hin : InRange x1) (e : Fin 160000) :
    val_main_v11 (F := Ideal) x1 (ix2 e (0 : Fin 1)) = x1 (ix2 (1 : Fin 2) e) := by
  rw [val_main_v11_apply]
  exact keep_word x1 hin 1 e _ (dst_row x1 _)

theorem col_wsrc (hin : InRange x1) (e : Fin 160000) :
    val_main_v22 (F := Ideal) x1 (ix2 e (0 : Fin 1)) = x1 (ix2 (0 : Fin 2) e) := by
  rw [val_main_v22_apply]
  exact keep_word x1 hin 0 e _ (src_row x1 _)

theorem col_wdst (hin : InRange x1) (e : Fin 160000) :
    val_main_v29 (F := Ideal) x1 (ix2 e (0 : Fin 1)) = x1 (ix2 (1 : Fin 2) e) := by
  rw [val_main_v29_apply]
  exact keep_word x1 hin 1 e _ (dst_row x1 _)

theorem col_rows (hin : InRange x1) (e : Fin 160000) :
    val_main_v38 (F := Ideal) x1 (ix2 e (0 : Fin 1)) = x1 (ix2 (0 : Fin 2) e) := by
  rw [val_main_v38_apply]
  exact keep_word x1 hin 0 e _ (src_row x1 _)

theorem col_seg (e : Fin 160000) :
    val_main_v43 (F := Ideal) x1 (ix2 e (0 : Fin 1)) = x1 (ix2 (1 : Fin 2) e) := by
  rw [val_main_v43_apply]
  exact dst_row x1 _

-- A word in the node range reads i exactly when its node is i.
theorem hits_eq (hin : InRange x1) (i : Fin 10000) :
    (Finset.univ.filter fun e : Fin 160000 => (x1 (ix2 (1 : Fin 2) e)).toInt = (i.val : Int))
      = Finset.univ.filter fun e : Fin 160000 => dstOf x1 e = i :=
  Finset.filter_congr fun e _ => by
    have := hin 1 e
    have := i.isLt
    rw [Fin.ext_iff]
    show _ ↔ min (x1 (ix2 (1 : Fin 2) e)).toInt.toNat 9999 = i.val
    omega

theorem deg_read (hin : InRange x1) (i : Fin 10000) :
    val_main_v15 (F := Ideal) x1 (ix1 i) = deg (dstOf x1) i := by
  rw [val_main_v15_apply, show val_main_v13 (F := Ideal) x1 (ix1 i) = _ from
    scatterAdd_vec_apply scatter_S10000_S160000x1_S160000_n_0_0_1_wf _ _ _ i,
    val_main_v5_apply, val_main_cst_apply, val_main_v14_apply, val_main_cst_2_apply]
  simp only [val_main_v12_apply, val_main_cst_1_apply, col_deg x1 hin, Ideal.addf_def, Ideal.ofBits_def,
    Ideal.ofBits_zero_f32, Ideal.ofBits_one_f32]
  rw [hits_eq x1 hin i]
  rfl

theorem dinv_read (hin : InRange x1) (i : Fin 10000) :
    val_main_v16 (F := Ideal) x1 (ix1 i) = dinv (dstOf x1) i := by
  rw [val_main_v16_apply, Ideal.hostUnary_rsqrt_def, deg_read x1 hin i]
  rfl

theorem weight_read (hin : InRange x1) (e : Fin 160000) :
    val_main_v31 (F := Ideal) x1 (ix1 e) = dinv (dstOf x1) (srcOf x1 e) * dinv (dstOf x1) (dstOf x1 e) := by
  rw [val_main_v31_apply]
  unfold val_main_v23 val_main_v30
  rw [vec_gather_read, vec_gather_read, col_wsrc x1 hin e, col_wdst x1 hin e, dinv_read x1 hin, dinv_read x1 hin]
  rfl

theorem lin_read (i : Fin 10000) (o : Fin 512) :
    val_main_v4 (F := Ideal) x0 x2 (ix2 i o) = lin (fun i k => x0 (ix2 i k)) (fun k o => x2 (ix2 k o)) i o := by
  rw [val_main_v4_apply]
  refine Finset.sum_congr rfl fun k _ => ?_
  rw [show lidx_main_v4 (ix2 i o) k = ix2 i k from funext (fun | ⟨0, _⟩ => rfl | ⟨1, _⟩ => rfl),
    show ridx_main_v4 (ix2 i o) k = ix2 k o from funext (fun | ⟨0, _⟩ => rfl | ⟨1, _⟩ => rfl)]

theorem msg_read (hin : InRange x1) (e : Fin 160000) (o : Fin 512) :
    val_main_v41 (F := Ideal) x0 x1 x2 (ix2 e o)
      = (dinv (dstOf x1) (srcOf x1 e) * dinv (dstOf x1) (dstOf x1 e))
        * lin (fun i k => x0 (ix2 i k)) (fun k o => x2 (ix2 k o)) (srcOf x1 e) o := by
  rw [val_main_v41_apply, val_main_v40_apply, val_main_v32_apply,
    show idx_main_v32 (idx_main_v40 (ix2 e o)) = ix1 e from funext fun | ⟨0, _⟩ => rfl, weight_read x1 hin e,
    show val_main_v39 (F := Ideal) x0 x1 x2 (ix2 e o) = _ from gather_rows_apply
      gather_S10000x512_S160000x1_S160000x512_1_0_n_n_0_1_1512_wf _ _ e o (node _) rfl, col_rows x1 hin e, lin_read x0 x2]
  rfl

theorem agg_read (hin : InRange x1) (i : Fin 10000) (o : Fin 512) :
    val_main_v44 (F := Ideal) x0 x1 x2 (ix2 i o)
      = 0 + ∑ e ∈ Finset.univ.filter (fun e : Fin 160000 => dstOf x1 e = i),
          (dinv (dstOf x1) (srcOf x1 e) * dinv (dstOf x1) (dstOf x1 e))
          * lin (fun i k => x0 (ix2 i k)) (fun k o => x2 (ix2 k o)) (srcOf x1 e) o := by
  rw [show val_main_v44 (F := Ideal) x0 x1 x2 (ix2 i o) = _ from scatterAdd_rows_apply
    scatter_S10000x512_S160000x1_S160000x512_1_0_0_1_wf _ _ _ i o,
    val_main_v42_apply, val_main_cst_9_apply, Ideal.ofBits_def, Ideal.ofBits_zero_f32]
  simp only [col_seg x1, msg_read x0 x1 x2 hin]
  rw [hits_eq x1 hin i]

theorem self_read (hin : InRange x1) (i : Fin 10000) (o : Fin 512) :
    val_main_v48 (F := Ideal) x0 x1 x2 (ix2 i o)
      = (dinv (dstOf x1) i * dinv (dstOf x1) i) * lin (fun i k => x0 (ix2 i k)) (fun k o => x2 (ix2 k o)) i o := by
  rw [val_main_v48_apply, val_main_v47_apply, val_main_v46_apply,
    show idx_main_v46 (idx_main_v47 (ix2 i o)) = ix1 i from funext fun | ⟨0, _⟩ => rfl, val_main_v45_apply,
    dinv_read x1 hin i, lin_read x0 x2 i o]
  rfl

theorem bias_read (i : Fin 10000) (o : Fin 512) : val_main_v51 (F := Ideal) x3 (ix2 i o) = x3 (ix1 o) := by
  rw [val_main_v51_apply, val_main_v50_apply,
    show idx_main_v50 (idx_main_v51 (ix2 i o)) = ix1 o from funext fun | ⟨0, _⟩ => rfl]

theorem conv_read (hin : InRange x1) (i : Fin 10000) (o : Fin 512) :
    val_main_v53 (F := Ideal) x0 x1 x2 x3 (ix2 i o)
      = conv (srcOf x1) (dstOf x1) (fun i k => x0 (ix2 i k)) (fun k o => x2 (ix2 k o)) (fun o => x3 (ix1 o)) i o := by
  rw [val_main_v53_apply, val_main_v52_apply, val_main_v49_apply, agg_read x0 x1 x2 hin i o,
    self_read x0 x1 x2 hin i o, bias_read x3 i o, val_main_call0_v0_apply, val_main_call0_cst_apply,
    Ideal.ofBits_def, Ideal.ofBits_zero_f32]
  rfl

-- The second layer is the first layer's operations over the first layer's output.
theorem conv2_read (hin : InRange x1) (i : Fin 10000) (o : Fin 512) :
    val_main_v107 (F := Ideal) x0 x1 x2 x3 x4 x5 (ix2 i o)
      = conv (srcOf x1) (dstOf x1)
          (conv (srcOf x1) (dstOf x1) (fun i k => x0 (ix2 i k)) (fun k o => x2 (ix2 k o)) (fun o => x3 (ix1 o)))
          (fun k o => x4 (ix2 k o)) (fun o => x5 (ix1 o)) i o := by
  have h := conv_read (val_main_v53 (F := Ideal) x0 x1 x2 x3) x1 x4 x5 hin i o
  rw [funext fun i' => funext fun k => conv_read x0 x1 x2 x3 hin i' k] at h
  exact h

theorem ref_eq_spec (hin : Cert.Spec.InRange x1) (i : Fin 10000) (o : Fin 16) :
    val_main_v111 (F := Ideal) x0 x1 x2 x3 x4 x5 x6 x7 (ix2 i o)
      = Cert.Spec.out (Cert.Spec.srcOf x1) (Cert.Spec.dstOf x1) (fun i k => x0 (ix2 i k)) (fun k o => x2 (ix2 k o))
          (fun o => x3 (ix1 o)) (fun k o => x4 (ix2 k o)) (fun o => x5 (ix1 o)) (fun k o => x6 (ix2 k o))
          (fun o => x7 (ix1 o)) i o := by
  rw [val_main_v111_apply, val_main_v108_apply, val_main_v110_apply, val_main_v109_apply,
    show idx_main_v109 (idx_main_v110 (ix2 i o)) = ix1 o from funext fun | ⟨0, _⟩ => rfl]
  refine congrArg (· + x7 (ix1 o)) (Finset.sum_congr rfl fun k _ => ?_)
  rw [show lidx_main_v108 (ix2 i o) k = ix2 i k from funext (fun | ⟨0, _⟩ => rfl | ⟨1, _⟩ => rfl),
    show ridx_main_v108 (ix2 i o) k = ix2 k o from funext (fun | ⟨0, _⟩ => rfl | ⟨1, _⟩ => rfl),
    conv2_read x0 x1 x2 x3 x4 x5 hin i k]

theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v111)
          = val_main_v111 (F := Ideal) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (Cert.ReferenceIdeal.Read.val_main_v111_eq m c), (h c).2⟩)
    (Cert.ReferenceIdeal.Value.run (F := Ideal) m ρ)

end Cert.ReferenceIdeal.RefValue

end
-- ==== Proof.PreFacts.lean ====
import proofs.«417597_j20066087207444_2_alg».proof.Pre_finite_inputs
import proofs.«417597_j20066087207444_2_alg».proof.Proof.Gen.Pre_finite_inputs
import proofs.«417597_j20066087207444_2_alg».proof.Proof.Spec
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Idealize.ShloMosaic Idealize.ShloMosaic.ValueIdx
open Cert.Pre_finite_inputs Cert.Pre_finite_inputs.Gen

instance : Subsingleton S_.Idx := ⟨fun a b => funext fun d => d.elim0⟩

-- An "all" that is 1 had a 1 at every index, and an extended real with max x (-x) < +inf is neither infinity.
theorem isReal_of_all {s : Shape} {axes : List (Fin s.rank)} (a : FVec Ideal s .f32) (dims : Fin S_.rank → Fin s.rank)
    (hb : S_.BroadcastsInDim s dims) (hr : s.ReducesTo axes S_) (h0 : 0 < S_.numel)
    (e : Host.reduce IntOp.andi
          (cmpf .olt (Host.absf a) (broadcastInDim s dims hb (constant (F := Ideal) S_ .f32 0x7F800000#32)))
          (constantI S_ 1 1#1) hr h0 ix0 = 1#1) : Cert.Spec.IsReal a := by
  intro i
  have h : Ideal.cmp .olt (max (a i) (-(a i))) (Ideal.ofBits .f32 0x7F800000#32) = 1#1 :=
    Host.reduce_andi_all _ _ hr h0 ix0 e i
  rw [show Ideal.ofBits .f32 0x7F800000#32 = (⊤ : EReal) by simp [Ideal.ofBits, Ideal.ieee]] at h
  generalize a i = x at h
  induction x using EReal.rec with
  | coe r => exact ⟨r, rfl⟩
  | _ => exact absurd h (by simp [Ideal.cmp])

theorem facts_of_pre (a0 : FVec Ideal S10000x512 .f32) (a1 : IVec S2x160000 32) (a2 : FVec Ideal S512x512 .f32)
    (a3 : FVec Ideal S512 .f32) (a4 : FVec Ideal S512x512 .f32) (a5 : FVec Ideal S512 .f32)
    (a6 : FVec Ideal S512x16 .f32) (a7 : FVec Ideal S16 .f32)
    (h : Cert.Pre_finite_inputs.fn (F := Ideal) a0 a1 a2 a3 a4 a5 a6 a7 = fun _ => 1#1) :
    Cert.Spec.IsReal a0 ∧ Cert.Spec.InRange a1 ∧ Cert.Spec.IsReal a2 ∧ Cert.Spec.IsReal a3 ∧ Cert.Spec.IsReal a4
      ∧ Cert.Spec.IsReal a5 ∧ Cert.Spec.IsReal a6 ∧ Cert.Spec.IsReal a7 := by
  have e := congrFun h ix0
  dsimp only [Cert.Pre_finite_inputs.fn, Cert.Pre_finite_inputs.fn_part1, Cert.Pre_finite_inputs.fn_part2] at e
  simp only [andi, IntOp.andi_eq_one] at e
  obtain ⟨⟨⟨⟨⟨⟨⟨h0, h2⟩, h3⟩, h4⟩, h5⟩, h6⟩, h7⟩, h1⟩ := e
  exact ⟨isReal_of_all a0 _ _ _ _ h0,
    fun r c => (IntOp.andi_eq_one.1 (Host.reduce_andi_all _ _ _ _ ix0 h1 (ix2 r c))).imp IntOp.cmpi_sge.1 IntOp.cmpi_slt.1,
    isReal_of_all a2 _ _ _ _ h2, isReal_of_all a3 _ _ _ _ h3, isReal_of_all a4 _ _ _ _ h4,
    isReal_of_all a5 _ _ _ _ h5, isReal_of_all a6 _ _ _ _ h6, isReal_of_all a7 _ _ _ _ h7⟩

end Cert.PreFacts

end
-- ==== Proof.ValueLib.lean ====
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ValueLib

open Idealize.ShloMosaic Idealize.ShloMosaic.TcCoe Idealize.ShloMosaic.ValueIdx

variable {M K N : ℕ}

-- broadcasting along an axis of extent 1 reads coordinate 0 there
theorem bcastCol_apply {α : Type} (v : (⟨2, ![M, 1]⟩ : Shape).Idx → α)
    (h : (⟨2, ![M, 1]⟩ : Shape).Broadcasts ⟨2, ![M, N]⟩) (p : Fin M) (c : Fin N) :
    broadcastTo ⟨2, ![M, N]⟩ v h (ix2 p c) = v (ix2 p (0 : Fin 1)) := by
  refine broadcastTo_apply v h (ix2 p c) (ix2 p (0 : Fin 1)) fun ax => ?_
  match ax with
  | ⟨0, _⟩ =>
    show p.val = if M = 1 then 0 else p.val
    split
    · have := p.isLt; omega
    · rfl
  | ⟨1, _⟩ => rfl

-- the contraction index of a rows-by-columns product is its one coordinate
theorem plainDot_apply {φ₁ φ₂ : FTy} (a : FVec Ideal ⟨2, ![M, K]⟩ φ₁) (w : FVec Ideal ⟨2, ![K, N]⟩ φ₂)
    (p : Fin M) (o : Fin N) :
    FloatOps.matmul (DotDims.plain M K N) none a w (constant ⟨2, ![M, N]⟩ .f32 0x00000000#32) (ix2 p o)
      = ∑ k : Fin K, a (ix2 p k) * w (ix2 k o) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  exact congrArg₂ (· * ·) (congrArg a (Shape.idx_ext₂ rfl hk)) (congrArg w (Shape.idx_ext₂ hk rfl))

theorem accStep_apply (acc : FVec Ideal ⟨2, ![M, N]⟩ .f32) (a : FVec Ideal ⟨2, ![M, K]⟩ .bf16)
    (w : FVec Ideal ⟨2, ![K, N]⟩ .bf16) (h1 h2 h3) (p : Fin M) (o : Fin N) :
    shapeCast ⟨2, ![M, N]⟩ (addf acc (matmul (DotDims.plain M K N) none (shapeCast ⟨2, ![M, K]⟩ a h1)
        (shapeCast ⟨2, ![K, N]⟩ w h2) (constant ⟨2, ![M, N]⟩ .f32 0x00000000#32))) h3 (ix2 p o)
      = acc (ix2 p o) + ∑ k : Fin K, a (ix2 p k) * w (ix2 k o) := by
  rw [shapeCast_self, shapeCast_self, shapeCast_self]
  exact congrArg (acc (ix2 p o) + ·) (plainDot_apply a w p o)

theorem accFirst_apply (a : FVec Ideal ⟨2, ![M, K]⟩ .bf16) (w : FVec Ideal ⟨2, ![K, N]⟩ .bf16) (h0 h1 h2 h3)
    (p : Fin M) (o : Fin N) :
    shapeCast ⟨2, ![M, N]⟩ (addf (shapeCast ⟨2, ![M, N]⟩ (broadcast ⟨2, ![M, N]⟩ (Scalar.ofBits .f32 0x00000000#32)) h0)
        (matmul (DotDims.plain M K N) none (shapeCast ⟨2, ![M, K]⟩ a h1) (shapeCast ⟨2, ![K, N]⟩ w h2)
          (constant ⟨2, ![M, N]⟩ .f32 0x00000000#32))) h3 (ix2 p o)
      = ∑ k : Fin K, a (ix2 p k) * w (ix2 k o) :=
  (accStep_apply _ a w h1 h2 h3 p o).trans
    ((congrArg (· + _) ((congrFun (shapeCast_self _ h0) _).trans Ideal.ofBits_zero_f32)).trans (zero_add _))

theorem scaleBias_apply (acc : FVec Ideal ⟨2, ![M, N]⟩ .f32) (s : FVec Ideal ⟨2, ![M, 1]⟩ .f32)
    (b : FVec Ideal ⟨2, ![1, N]⟩ .f32) (h1 h2 h3 h4) (p : Fin M) (o : Fin N) :
    addf (mulf acc (broadcastTo ⟨2, ![M, N]⟩ (shapeCast ⟨2, ![M, 1]⟩ s h1) h2))
        (broadcastTo ⟨2, ![M, N]⟩ (shapeCast ⟨2, ![1, N]⟩ b h3) h4) (ix2 p o)
      = acc (ix2 p o) * s (ix2 p (0 : Fin 1)) + b (ix2 (0 : Fin 1) o) := by
  rw [shapeCast_self, shapeCast_self]
  exact congrArg₂ (· + ·) (congrArg (acc (ix2 p o) * ·) (bcastCol_apply s _ p o)) (broadcastTo_1b_ab_apply b _ p o)

-- the same, then clamped below at zero
theorem reluScaleBias_apply (acc : FVec Ideal ⟨2, ![M, N]⟩ .f32) (s : FVec Ideal ⟨2, ![M, 1]⟩ .f32)
    (b : FVec Ideal ⟨2, ![1, N]⟩ .f32) (h1 h2 h3 h4) (p : Fin M) (o : Fin N) :
    maximumf (addf (mulf acc (broadcastTo ⟨2, ![M, N]⟩ (shapeCast ⟨2, ![M, 1]⟩ s h1) h2))
        (broadcastTo ⟨2, ![M, N]⟩ (shapeCast ⟨2, ![1, N]⟩ b h3) h4))
      (broadcast ⟨2, ![M, N]⟩ (Scalar.ofBits .f32 0x00000000#32)) (ix2 p o)
      = max (acc (ix2 p o) * s (ix2 p (0 : Fin 1)) + b (ix2 (0 : Fin 1) o)) 0 :=
  congrArg₂ max (scaleBias_apply acc s b h1 h2 h3 h4 p o) Ideal.ofBits_zero_f32

-- a block entry's coordinate moves with the block index alone, and is the entry's own in block 0
theorem off_congr {a a' b x : ℕ} (h : a = a') : a * b + 1 * x = a' * b + 1 * x := by rw [h]

theorem off_zero {a b x : ℕ} (h : a = 0) : a * b + 1 * x = x := by rw [h, Nat.zero_mul, Nat.zero_add, Nat.one_mul]

theorem off_eq {a a' b x : ℕ} (h : a = a') : a * b + 1 * x = b * a' + x := by rw [h, Nat.mul_comm, Nat.one_mul]

-- an entry lies in the row block its row falls in
theorem rows_mem {R C B : ℕ} (hB : 0 < B) (i : (⟨2, ![R, C]⟩ : Shape).Idx) {idx : Fin 2 → ℕ}
    (h0 : idx 0 = (i 0).val / B) (h1 : idx 1 = 0) :
    ∀ a : Fin 2, idx a * ![B, C] a ≤ (i a).val ∧ (i a).val < idx a * ![B, C] a + ![B, C] a :=
  Fin.forall_fin_two.mpr
    ⟨by rw [h0]; exact ⟨Nat.div_mul_le_self _ B, Nat.lt_div_mul_add hB⟩,
     by rw [h1]; exact ⟨by show 0 * C ≤ _; omega, by show _ < 0 * C + C; have := idx2_lt1 i; omega⟩⟩

end Cert.ValueLib

end
-- ==== Proof.Value0.lean ====
import proofs.«417597_j20066087207444_2_alg».proof.Proof.Region0
import proofs.«417597_j20066087207444_2_alg».proof.Proof.ValueLib

noncomputable section

open scoped BigOperators

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.ValueLib

variable (V : (c : Dev nD) → (b : Ref sig .tc) → Buf (Elt Ideal) ((c : Thread nD τ).loc b))

abbrev rowsArr0 (c : Dev nD) : S10240x512.Idx → EReal := V c main_v42
abbrev wtsArr0 (c : Dev nD) : S512x512.Idx → EReal := V c main_v43
abbrev biasArr0 (c : Dev nD) : S1x512.Idx → EReal := V c main_v54
abbrev scaleArr0 (c : Dev nD) : S10240x1.Idx → EReal := V c main_v19

theorem idx0_facts : ∀ t : Fin cfg0.N,
      win0_0.index t 0 = win0_4.index t 0 ∧ win0_0.index t 1 = 0
    ∧ win0_1.index t 0 = 0 ∧ win0_1.index t 1 = win0_4.index t 1
    ∧ win0_2.index t 0 = 0 ∧ win0_2.index t 1 = win0_4.index t 1
    ∧ win0_3.index t 0 = win0_4.index t 0 ∧ win0_3.index t 1 = 0 :=
  (by decide +kernel : ∀ t : Fin grid0.N, _)

theorem idx0_onto : ∀ q : Fin 4, ∃ t : Fin cfg0.N, win0_4.index t = ![q.val, 0] :=
  (by decide +kernel : ∀ q : Fin 4, ∃ t : Fin grid0.N, win0_4.index t = ![q.val, 0])

def denseArr0 (c : Dev nD) : S10240x512.Idx → EReal := fun i =>
  (∑ k : Fin 512, rowsArr0 V c (ix2 (i 0) k) * wtsArr0 V c (ix2 k (i 1))) * scaleArr0 V c (ix2 (i 0) 0)
    + biasArr0 V c (ix2 0 (i 1))

-- every block entry is the array's entry under it, and the index maps line the four blocks up with the output's
theorem flushed0_eq (c : Dev nD) (t : Fin cfg0.N) :
    (dat0 (F := Ideal) V c).flushed 4 t = ((cfg0.win 4).blk t).view.read (Elt Ideal) (denseArr0 V c) := by
  obtain ⟨e00, e01, e10, e11, e20, e21, e30, e31⟩ := idx0_facts t
  funext j
  obtain ⟨p, o, rfl⟩ : ∃ (p : Fin 2560) (o : Fin 512), j = ix2 p o := ⟨j 0, j 1, eq_ix2 j⟩
  refine (scaleBias_apply _ (sblk0 V c t) (bblk0 V c t) _ _ _ _ p o).trans (congrArg₂ (· + ·) (congrArg₂ (· * ·)
    ((accFirst_apply (ablk0 V c t) (wblk0 V c t) _ _ _ _ p o).trans
      (Finset.sum_congr rfl fun k _ => congrArg₂ (· * ·) ?_ ?_)) ?_) ?_)
  · exact congrArg (V c main_v42) (Shape.idx_ext₂ (off_congr e00) (off_zero e01))
  · exact congrArg (V c main_v43) (Shape.idx_ext₂ (off_zero e10) (off_congr e11))
  · exact congrArg (V c main_v19) (Shape.idx_ext₂ (off_congr e30) (off_zero e31))
  · exact congrArg (V c main_v54) (Shape.idx_ext₂ (off_zero e20) (off_congr e21))

-- row r lies in row block r / 2560
theorem cover0 (i : S10240x512.Idx) :
    ∃ t : Fin cfg0.N, (cfg0.win 4).flush t = true ∧ i ∈ ((cfg0.win 4).blk t).view.set := by
  obtain ⟨t, ht⟩ := idx0_onto ⟨(i 0).val / 2560, by have := idx2_lt0 i; omega⟩
  refine ⟨t, flush0_4 t, ?_⟩
  show i ∈ ((View.whole main_v57).slice (win0_4.rect t)).set
  rw [View.set_slice_whole, Rect.mem_set_unit]
  exact rows_mem (B := 2560) (by decide) i (congrFun ht 0) (congrFun ht 1)

theorem final0_apply (c : Dev nD) (r : Fin 10240) (o : Fin 512) :
    ((dat0 (F := Ideal) V c).arrAt 4 cfg0.N : S10240x512.Idx → EReal) (ix2 r o)
      = (∑ k : Fin 512, rowsArr0 V c (ix2 r k) * wtsArr0 V c (ix2 k o)) * scaleArr0 V c (ix2 r 0)
          + biasArr0 V c (ix2 0 o) :=
  congrFun ((dat0 (F := Ideal) V c).arrAt_eq_of_cover 4 (denseArr0 V c) (fun t _ => flushed0_eq V c t) cover0) (ix2 r o)

end Cert.KernelIdeal.HandValue

end
-- ==== Proof.GcnAlgebra.lean ====
import Mathlib.Data.EReal.Basic
import Mathlib.Analysis.Real.Sqrt
import Mathlib.Algebra.BigOperators.Fin
import Mathlib.Algebra.BigOperators.Group.Finset.Basic
import Mathlib.Algebra.BigOperators.Ring.Finset
import Mathlib.Logic.Equiv.Fin.Basic
import Idealize.ShloMosaic.PureOps.Ideal

open Finset
open scoped BigOperators

namespace Cert.GcnAlgebra

noncomputable section

section Graph
variable {ι ε : Type*} [Fintype ι] [DecidableEq ι] [Fintype ε] [DecidableEq ε]

def cnt (src dst : ε → ι) (i j : ι) : ℕ :=
  (univ.filter fun e => dst e = i ∧ src e = j).card + (if i = j then 1 else 0)

-- Each edge into i is counted once, in the column of its source; the diagonal adds g i.
theorem cnt_sum (src dst : ε → ι) (g : ι → ℝ) (i : ι) :
    ∑ j, (cnt src dst i j : ℝ) * g j
      = (∑ e ∈ univ.filter (fun e => dst e = i), g (src e)) + g i := by
  have hcol : ∀ j, ((univ.filter fun e => dst e = i ∧ src e = j).card : ℝ) * g j
      = ∑ e ∈ univ.filter (fun e => dst e = i), if src e = j then g (src e) else 0 := by
    intro j
    rw [← Finset.sum_filter, Finset.filter_filter,
      Finset.sum_congr rfl (fun e he => by rw [(Finset.mem_filter.mp he).2.2]),
      Finset.sum_const, nsmul_eq_mul]
  simp only [cnt, Nat.cast_add, add_mul, Finset.sum_add_distrib]
  congr 1
  · simp_rw [hcol]
    rw [Finset.sum_comm]
    exact Finset.sum_congr rfl fun e _ => by simp
  · simp

theorem conv_real (src dst : ε → ι) (d hW : ι → ℝ) (b : ℝ) (i : ι) :
    (∑ j, (cnt src dst i j : ℝ) * (hW j * d j + 0)) * d i + b
      = ((0 + ∑ e ∈ univ.filter (fun e => dst e = i), (d (src e) * d (dst e)) * hW (src e))
          + (d i * d i) * hW i) + b := by
  rw [cnt_sum src dst (fun j => hW j * d j + 0) i, add_mul, Finset.sum_mul]
  have hedge : ∀ e ∈ univ.filter (fun e => dst e = i),
      (hW (src e) * d (src e) + 0) * d i = (d (src e) * d (dst e)) * hW (src e) := by
    intro e he
    rw [(Finset.mem_filter.mp he).2]
    ring
  rw [Finset.sum_congr rfl hedge]
  ring

end Graph

@[norm_cast]
theorem coe_sum {α : Type*} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

section Graph
variable {ι ε : Type*} [Fintype ι] [DecidableEq ι] [Fintype ε] [DecidableEq ε]

-- Every entry is a coerced real, and on reals it is conv_real.
theorem conv_ereal (src dst : ε → ι) (d hW : ι → ℝ) (b : ℝ) (i : ι) :
    (∑ j, ((cnt src dst i j : ℝ) : EReal) * ((hW j : EReal) * (d j : EReal) + 0)) * (d i : EReal)
        + (b : EReal)
      = ((0 + ∑ e ∈ univ.filter (fun e => dst e = i),
              ((d (src e) : EReal) * (d (dst e) : EReal)) * (hW (src e) : EReal))
          + ((d i : EReal) * (d i : EReal)) * (hW i : EReal)) + (b : EReal) := by
  simp only [← EReal.coe_zero, ← EReal.coe_mul, ← EReal.coe_add, ← coe_sum]
  rw [conv_real]

end Graph

theorem degree_coe {α : Type*} (s : Finset α) :
    (0 + ∑ _e ∈ s, (1 : EReal)) + 1 = (((s.card : ℝ) + 1 : ℝ) : EReal) := by
  rw [zero_add, EReal.coe_add, EReal.coe_one]
  congr 1
  rw [← EReal.coe_one, ← coe_sum, Finset.sum_const, nsmul_eq_mul, mul_one]

open Idealize.ShloMosaic in
theorem rsqrt_real (r : ℝ) (hr : 1 ≤ r) : ∃ q : ℝ, Ideal.rsqrt (r : EReal) = (q : EReal) :=
  ⟨_, by rw [Ideal.rsqrt_coe, if_neg (not_lt.mpr (by linarith)), if_neg (by linarith : r ≠ 0)]⟩

theorem sum_drop_zero_tail {M : Type*} [AddCommMonoid M] {n m : ℕ} (h : n ≤ m) (f : Fin m → M)
    (hf : ∀ j : Fin m, n ≤ j.val → f j = 0) :
    ∑ j : Fin m, f j = ∑ j : Fin n, f ⟨j.val, lt_of_lt_of_le j.isLt h⟩ := by
  obtain ⟨k, rfl⟩ := Nat.exists_eq_add_of_le h
  rw [Fin.sum_trunc f (fun j => hf _ (by simp))]
  rfl

theorem sum_blocks_8_1280 {M : Type*} [AddCommMonoid M] (f : Fin 10240 → M) :
    ∑ kb : Fin 8, ∑ j : Fin 1280, f ⟨1280 * kb.val + j.val, by omega⟩
      = ∑ j : Fin 10240, f j := by
  rw [← Equiv.sum_comp (finProdFinEquiv : Fin 8 × Fin 1280 ≃ Fin 10240) f, Fintype.sum_prod_type]
  refine Finset.sum_congr rfl fun kb _ => Finset.sum_congr rfl fun j _ => congrArg f (Fin.ext ?_)
  simp [finProdFinEquiv, add_comm]

end

end Cert.GcnAlgebra
-- ==== Proof.Value1.lean ====
import proofs.«417597_j20066087207444_2_alg».proof.Proof.Region1
import proofs.«417597_j20066087207444_2_alg».proof.Proof.ValueLib
import proofs.«417597_j20066087207444_2_alg».proof.Proof.GcnAlgebra
import Mathlib.Algebra.BigOperators.Fin

noncomputable section

open scoped BigOperators

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.ValueLib

variable (V : (c : Dev nD) → (b : Ref sig .tc) → Buf (Elt Ideal) ((c : Thread nD τ).loc b))

abbrev adj1 (c : Dev nD) : S10240x10240.Idx → EReal := V c main_v40
abbrev feat1 (c : Dev nD) : S10240x512.Idx → EReal := V c main_v57
abbrev scale1 (c : Dev nD) : S10240x1.Idx → EReal := V c main_v19
abbrev bias1 (c : Dev nD) : S1x512.Idx → EReal := V c main_v55

theorem points1 : cfg1.N = 32 := by decide

theorem idx1 : ∀ t : Fin cfg1.N,
    win1_0.index t 0 = t.val / 8 ∧ win1_0.index t 1 = t.val % 8
    ∧ win1_1.index t 0 = t.val % 8 ∧ win1_1.index t 1 = 0
    ∧ win1_2.index t 0 = t.val / 8 ∧ win1_2.index t 1 = 0
    ∧ win1_3.index t 0 = 0 ∧ win1_3.index t 1 = 0
    ∧ win1_4.index t 0 = t.val / 8 ∧ win1_4.index t 1 = 0 :=
  (by decide +kernel : ∀ t : Fin grid1.N, _)

-- at point 8 i + k the blocks are rows from 2560 i, columns from 1280 k of the counts and rows from 1280 k of the features
theorem blockDot1_eq (c : Dev nD) (i k : ℕ) (hk : k < 8) (h : 8 * i + k < cfg1.N) (p : Fin 2560) (q : Fin 512)
    (r : Fin 10240) (hr : r.val = 2560 * i + p.val) :
    ∑ j : Fin 1280, (cblk1 V c ⟨8 * i + k, h⟩ : S2560x1280.Idx → EReal) (ix2 p j)
        * (hblk1 V c ⟨8 * i + k, h⟩ : S1280x512.Idx → EReal) (ix2 j q)
      = ∑ j : Fin 1280, adj1 V c (ix2 r ⟨1280 * k + j.val, by omega⟩) * feat1 V c (ix2 ⟨1280 * k + j.val, by omega⟩ q) := by
  obtain ⟨e00, e01, e10, e11, -⟩ : (_ = (8 * i + k) / 8) ∧ (_ = (8 * i + k) % 8) ∧ (_ = (8 * i + k) % 8) ∧ (_ = 0) ∧ _ :=
    idx1 ⟨8 * i + k, h⟩
  refine Finset.sum_congr rfl fun j _ => congrArg₂ (· * ·) ?_ ?_
  · exact congrArg (V c main_v40) (Shape.idx_ext₂ ((off_eq (e00.trans (by omega))).trans hr.symm)
      (off_eq (e01.trans (by omega))))
  · exact congrArg (V c main_v57) (Shape.idx_ext₂ (off_eq (e10.trans (by omega))) (off_zero e11))

-- by induction on k: zero plus one block product at k = 0, one more block product at every later point
theorem acc1_apply (c : Dev nD) (i : ℕ) (p : Fin 2560) (q : Fin 512) (r : Fin 10240) (hr : r.val = 2560 * i + p.val) :
    ∀ (k : ℕ) (hk : k < 8) (h : 8 * i + k < cfg1.N),
      (accAt1 V c (8 * i + k) h : S2560x512.Idx → EReal) (ix2 p q)
        = ∑ s : Fin (k + 1), ∑ j : Fin 1280, adj1 V c (ix2 r ⟨1280 * s.val + j.val, by omega⟩)
            * feat1 V c (ix2 ⟨1280 * s.val + j.val, by omega⟩ q)
  | 0, hk, h => by
    rw [Fin.sum_univ_one]
    exact (congrFun (accAt1_first V c ⟨8 * i + 0, h⟩ (show (8 * i + 0) % 8 = 0 by omega)) (ix2 p q)).trans <|
      (accFirst_apply _ _ _ _ _ _ p q).trans (blockDot1_eq V c i 0 hk h p q r hr)
  | k + 1, hk, h => by
    refine Eq.trans ?_ (Fin.sum_univ_castSucc _).symm
    exact (congrFun (accAt1_next V c ⟨8 * i + (k + 1), h⟩ (show ¬(8 * i + (k + 1)) % 8 = 0 by omega)) (ix2 p q)).trans <|
      (accStep_apply _ _ _ _ _ _ p q).trans <|
        congrArg₂ (· + ·) (acc1_apply c i p q r hr k (by omega) (Nat.lt_of_succ_lt h))
          (blockDot1_eq V c i (k + 1) hk h p q r hr)

-- after the last point of a row block the eight block sums are one sum over all columns
theorem acc1_last (c : Dev nD) (n : ℕ) (hn : n < cfg1.N) (h7 : n % 8 = 7) (p : Fin 2560) (q : Fin 512)
    (r : Fin 10240) (hr : r.val = 2560 * (n / 8) + p.val) :
    (accAt1 V c n hn : S2560x512.Idx → EReal) (ix2 p q) = ∑ j : Fin 10240, adj1 V c (ix2 r j) * feat1 V c (ix2 j q) := by
  obtain ⟨i, rfl⟩ : ∃ i, n = 8 * i + 7 := ⟨n / 8, by omega⟩
  rw [acc1_apply V c i p q r (by omega) 7 (by omega) hn]
  exact Cert.GcnAlgebra.sum_blocks_8_1280 fun j => adj1 V c (ix2 r j) * feat1 V c (ix2 j q)

def agg1 (c : Dev nD) : S10240x512.Idx → EReal := fun i =>
  max ((∑ j : Fin 10240, adj1 V c (ix2 (i 0) j) * feat1 V c (ix2 j (i 1)))
      * scale1 V c (ix2 (i 0) 0) + bias1 V c (ix2 0 (i 1))) 0

-- at the last point of a row block the output block is the accumulator scaled, shifted and clamped, at the block's rows
theorem flushed1_eq (c : Dev nD) (t : Fin cfg1.N) (hf : (cfg1.win 4).flush t = true) :
    (dat1 V c).flushed 4 t = ((cfg1.win 4).blk t).view.read (Elt Ideal) (agg1 V c) := by
  have h7 : t.val % 8 = 7 := (flush1_4 t).mp hf
  have ht : t.val < 32 := lt_of_lt_of_eq t.isLt points1
  obtain ⟨-, -, -, -, e20, e21, e30, e31, e40, e41⟩ := idx1 t
  funext y
  obtain ⟨p, q, rfl⟩ : ∃ (p : Fin 2560) (q : Fin 512), y = ix2 p q := ⟨y 0, y 1, eq_ix2 y⟩
  show outAt1 V c t (ix2 p q) = agg1 V c (((cfg1.win 4).blk t).view.emb (ix2 p q))
  rw [show ((cfg1.win 4).blk t).view.emb (ix2 p q) = ix2 (⟨2560 * (t.val / 8) + p.val, by omega⟩ : Fin 10240) q from
    Shape.idx_ext₂ (off_eq e40) (off_zero e41)]
  refine (reluScaleBias_apply _ (dblk1 V c t) (bblk1 V c t) _ _ _ _ p q).trans
    (congrArg (max · 0) (congrArg₂ (· + ·) (congrArg₂ (· * ·) ?_ ?_) ?_))
  · exact acc1_last V c t.val t.isLt h7 p q _ rfl
  · exact congrArg (V c main_v19) (Shape.idx_ext₂ (off_eq e20) (off_zero e21))
  · exact congrArg (V c main_v55) (Shape.idx_ext₂ (off_zero e30) (off_zero e31))

-- row r lies in the block of the last point of row block r / 2560
theorem cover1 (i : S10240x512.Idx) :
    ∃ t : Fin cfg1.N, (cfg1.win 4).flush t = true ∧ i ∈ ((cfg1.win 4).blk t).view.set := by
  have h0 := idx2_lt0 i
  obtain ⟨t, ht⟩ : ∃ t : Fin cfg1.N, t.val = 8 * ((i 0).val / 2560) + 7 :=
    ⟨⟨8 * ((i 0).val / 2560) + 7, by rw [points1]; omega⟩, rfl⟩
  obtain ⟨-, -, -, -, -, -, -, -, e0, e1⟩ := idx1 t
  refine ⟨t, (flush1_4 t).mpr (by omega), ?_⟩
  show i ∈ ((View.whole main_v58).slice (win1_4.rect t)).set
  rw [View.set_slice_whole, Rect.mem_set_unit]
  exact rows_mem (B := 2560) (by decide) i (by omega) e1

theorem final1_apply (c : Dev nD) (r : Fin 10240) (o : Fin 512) :
    ((dat1 (F := Ideal) V c).arrAt 4 cfg1.N : S10240x512.Idx → EReal) (ix2 r o)
      = (max ((∑ j : Fin 10240, adj1 V c (ix2 r j) * feat1 V c (ix2 j o)) * scale1 V c (ix2 r 0) + bias1 V c (ix2 0 o)) 0 : EReal) :=
  congrFun ((dat1 V c).arrAt_eq_of_cover 4 (agg1 V c) (flushed1_eq V c) cover1) (ix2 r o)

end Cert.KernelIdeal.HandValue

end
-- ==== Proof.Value2.lean ====
import proofs.«417597_j20066087207444_2_alg».proof.Proof.Region2
import proofs.«417597_j20066087207444_2_alg».proof.Proof.ValueLib

noncomputable section

open scoped BigOperators

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.ValueLib

variable (V : (c : Dev nD) → (b : Ref sig .tc) → Buf (Elt Ideal) ((c : Thread nD τ).loc b))

abbrev rowsArr2 (c : Dev nD) : S10240x512.Idx → EReal := V c main_v58
abbrev wtsArr2 (c : Dev nD) : S512x512.Idx → EReal := V c main_v44
abbrev biasArr2 (c : Dev nD) : S1x512.Idx → EReal := V c main_v54
abbrev scaleArr2 (c : Dev nD) : S10240x1.Idx → EReal := V c main_v19

theorem idx2_facts : ∀ t : Fin cfg2.N,
      win2_0.index t 0 = win2_4.index t 0 ∧ win2_0.index t 1 = 0
    ∧ win2_1.index t 0 = 0 ∧ win2_1.index t 1 = win2_4.index t 1
    ∧ win2_2.index t 0 = 0 ∧ win2_2.index t 1 = win2_4.index t 1
    ∧ win2_3.index t 0 = win2_4.index t 0 ∧ win2_3.index t 1 = 0 :=
  (by decide +kernel : ∀ t : Fin grid2.N, _)

theorem idx2_onto : ∀ q : Fin 4, ∃ t : Fin cfg2.N, win2_4.index t = ![q.val, 0] :=
  (by decide +kernel : ∀ q : Fin 4, ∃ t : Fin grid2.N, win2_4.index t = ![q.val, 0])

def denseArr2 (c : Dev nD) : S10240x512.Idx → EReal := fun i =>
  (∑ k : Fin 512, rowsArr2 V c (ix2 (i 0) k) * wtsArr2 V c (ix2 k (i 1))) * scaleArr2 V c (ix2 (i 0) 0)
    + biasArr2 V c (ix2 0 (i 1))

-- every block entry is the array's entry under it, and the index maps line the four blocks up with the output's
theorem flushed2_eq (c : Dev nD) (t : Fin cfg2.N) :
    (dat2 (F := Ideal) V c).flushed 4 t = ((cfg2.win 4).blk t).view.read (Elt Ideal) (denseArr2 V c) := by
  obtain ⟨e00, e01, e10, e11, e20, e21, e30, e31⟩ := idx2_facts t
  funext j
  obtain ⟨p, o, rfl⟩ : ∃ (p : Fin 2560) (o : Fin 512), j = ix2 p o := ⟨j 0, j 1, eq_ix2 j⟩
  refine (scaleBias_apply _ (sblk2 V c t) (bblk2 V c t) _ _ _ _ p o).trans (congrArg₂ (· + ·) (congrArg₂ (· * ·)
    ((accFirst_apply (ablk2 V c t) (wblk2 V c t) _ _ _ _ p o).trans
      (Finset.sum_congr rfl fun k _ => congrArg₂ (· * ·) ?_ ?_)) ?_) ?_)
  · exact congrArg (V c main_v58) (Shape.idx_ext₂ (off_congr e00) (off_zero e01))
  · exact congrArg (V c main_v44) (Shape.idx_ext₂ (off_zero e10) (off_congr e11))
  · exact congrArg (V c main_v19) (Shape.idx_ext₂ (off_congr e30) (off_zero e31))
  · exact congrArg (V c main_v54) (Shape.idx_ext₂ (off_zero e20) (off_congr e21))

-- row r lies in row block r / 2560
theorem cover2 (i : S10240x512.Idx) :
    ∃ t : Fin cfg2.N, (cfg2.win 4).flush t = true ∧ i ∈ ((cfg2.win 4).blk t).view.set := by
  obtain ⟨t, ht⟩ := idx2_onto ⟨(i 0).val / 2560, by have := idx2_lt0 i; omega⟩
  refine ⟨t, flush2_4 t, ?_⟩
  show i ∈ ((View.whole main_v59).slice (win2_4.rect t)).set
  rw [View.set_slice_whole, Rect.mem_set_unit]
  exact rows_mem (B := 2560) (by decide) i (congrFun ht 0) (congrFun ht 1)

theorem final2_apply (c : Dev nD) (r : Fin 10240) (o : Fin 512) :
    ((dat2 (F := Ideal) V c).arrAt 4 cfg2.N : S10240x512.Idx → EReal) (ix2 r o)
      = (∑ k : Fin 512, rowsArr2 V c (ix2 r k) * wtsArr2 V c (ix2 k o)) * scaleArr2 V c (ix2 r 0)
          + biasArr2 V c (ix2 0 o) :=
  congrFun ((dat2 (F := Ideal) V c).arrAt_eq_of_cover 4 (denseArr2 V c) (fun t _ => flushed2_eq V c t) cover2) (ix2 r o)

end Cert.KernelIdeal.HandValue

end
-- ==== Proof.Value3.lean ====
import proofs.«417597_j20066087207444_2_alg».proof.Proof.Region3
import proofs.«417597_j20066087207444_2_alg».proof.Proof.ValueLib
import proofs.«417597_j20066087207444_2_alg».proof.Proof.GcnAlgebra
import Mathlib.Algebra.BigOperators.Fin

noncomputable section

open scoped BigOperators

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.ValueLib

variable (V : (c : Dev nD) → (b : Ref sig .tc) → Buf (Elt Ideal) ((c : Thread nD τ).loc b))

abbrev adj3 (c : Dev nD) : S10240x10240.Idx → EReal := V c main_v40
abbrev feat3 (c : Dev nD) : S10240x512.Idx → EReal := V c main_v59
abbrev scale3 (c : Dev nD) : S10240x1.Idx → EReal := V c main_v19
abbrev bias3 (c : Dev nD) : S1x512.Idx → EReal := V c main_v56

theorem points3 : cfg3.N = 32 := by decide

theorem idx3 : ∀ t : Fin cfg3.N,
    win3_0.index t 0 = t.val / 8 ∧ win3_0.index t 1 = t.val % 8
    ∧ win3_1.index t 0 = t.val % 8 ∧ win3_1.index t 1 = 0
    ∧ win3_2.index t 0 = t.val / 8 ∧ win3_2.index t 1 = 0
    ∧ win3_3.index t 0 = 0 ∧ win3_3.index t 1 = 0
    ∧ win3_4.index t 0 = t.val / 8 ∧ win3_4.index t 1 = 0 :=
  (by decide +kernel : ∀ t : Fin grid3.N, _)

-- at point 8 i + k the blocks are rows from 2560 i, columns from 1280 k of the counts and rows from 1280 k of the features
theorem blockDot3_eq (c : Dev nD) (i k : ℕ) (hk : k < 8) (h : 8 * i + k < cfg3.N) (p : Fin 2560) (q : Fin 512)
    (r : Fin 10240) (hr : r.val = 2560 * i + p.val) :
    ∑ j : Fin 1280, (cblk3 V c ⟨8 * i + k, h⟩ : S2560x1280.Idx → EReal) (ix2 p j)
        * (hblk3 V c ⟨8 * i + k, h⟩ : S1280x512.Idx → EReal) (ix2 j q)
      = ∑ j : Fin 1280, adj3 V c (ix2 r ⟨1280 * k + j.val, by omega⟩) * feat3 V c (ix2 ⟨1280 * k + j.val, by omega⟩ q) := by
  obtain ⟨e00, e01, e10, e11, -⟩ : (_ = (8 * i + k) / 8) ∧ (_ = (8 * i + k) % 8) ∧ (_ = (8 * i + k) % 8) ∧ (_ = 0) ∧ _ :=
    idx3 ⟨8 * i + k, h⟩
  refine Finset.sum_congr rfl fun j _ => congrArg₂ (· * ·) ?_ ?_
  · exact congrArg (V c main_v40) (Shape.idx_ext₂ ((off_eq (e00.trans (by omega))).trans hr.symm)
      (off_eq (e01.trans (by omega))))
  · exact congrArg (V c main_v59) (Shape.idx_ext₂ (off_eq (e10.trans (by omega))) (off_zero e11))

-- by induction on k: zero plus one block product at k = 0, one more block product at every later point
theorem acc3_apply (c : Dev nD) (i : ℕ) (p : Fin 2560) (q : Fin 512) (r : Fin 10240) (hr : r.val = 2560 * i + p.val) :
    ∀ (k : ℕ) (hk : k < 8) (h : 8 * i + k < cfg3.N),
      (accAt3 V c (8 * i + k) h : S2560x512.Idx → EReal) (ix2 p q)
        = ∑ s : Fin (k + 1), ∑ j : Fin 1280, adj3 V c (ix2 r ⟨1280 * s.val + j.val, by omega⟩)
            * feat3 V c (ix2 ⟨1280 * s.val + j.val, by omega⟩ q)
  | 0, hk, h => by
    rw [Fin.sum_univ_one]
    exact (congrFun (accAt3_first V c ⟨8 * i + 0, h⟩ (show (8 * i + 0) % 8 = 0 by omega)) (ix2 p q)).trans <|
      (accFirst_apply _ _ _ _ _ _ p q).trans (blockDot3_eq V c i 0 hk h p q r hr)
  | k + 1, hk, h => by
    refine Eq.trans ?_ (Fin.sum_univ_castSucc _).symm
    exact (congrFun (accAt3_next V c ⟨8 * i + (k + 1), h⟩ (show ¬(8 * i + (k + 1)) % 8 = 0 by omega)) (ix2 p q)).trans <|
      (accStep_apply _ _ _ _ _ _ p q).trans <|
        congrArg₂ (· + ·) (acc3_apply c i p q r hr k (by omega) (Nat.lt_of_succ_lt h))
          (blockDot3_eq V c i (k + 1) hk h p q r hr)

-- after the last point of a row block the eight block sums are one sum over all columns
theorem acc3_last (c : Dev nD) (n : ℕ) (hn : n < cfg3.N) (h7 : n % 8 = 7) (p : Fin 2560) (q : Fin 512)
    (r : Fin 10240) (hr : r.val = 2560 * (n / 8) + p.val) :
    (accAt3 V c n hn : S2560x512.Idx → EReal) (ix2 p q) = ∑ j : Fin 10240, adj3 V c (ix2 r j) * feat3 V c (ix2 j q) := by
  obtain ⟨i, rfl⟩ : ∃ i, n = 8 * i + 7 := ⟨n / 8, by omega⟩
  rw [acc3_apply V c i p q r (by omega) 7 (by omega) hn]
  exact Cert.GcnAlgebra.sum_blocks_8_1280 fun j => adj3 V c (ix2 r j) * feat3 V c (ix2 j q)

def agg3 (c : Dev nD) : S10240x512.Idx → EReal := fun i =>
  max ((∑ j : Fin 10240, adj3 V c (ix2 (i 0) j) * feat3 V c (ix2 j (i 1)))
      * scale3 V c (ix2 (i 0) 0) + bias3 V c (ix2 0 (i 1))) 0

-- at the last point of a row block the output block is the accumulator scaled, shifted and clamped, at the block's rows
theorem flushed3_eq (c : Dev nD) (t : Fin cfg3.N) (hf : (cfg3.win 4).flush t = true) :
    (dat3 V c).flushed 4 t = ((cfg3.win 4).blk t).view.read (Elt Ideal) (agg3 V c) := by
  have h7 : t.val % 8 = 7 := (flush3_4 t).mp hf
  have ht : t.val < 32 := lt_of_lt_of_eq t.isLt points3
  obtain ⟨-, -, -, -, e20, e21, e30, e31, e40, e41⟩ := idx3 t
  funext y
  obtain ⟨p, q, rfl⟩ : ∃ (p : Fin 2560) (q : Fin 512), y = ix2 p q := ⟨y 0, y 1, eq_ix2 y⟩
  show outAt3 V c t (ix2 p q) = agg3 V c (((cfg3.win 4).blk t).view.emb (ix2 p q))
  rw [show ((cfg3.win 4).blk t).view.emb (ix2 p q) = ix2 (⟨2560 * (t.val / 8) + p.val, by omega⟩ : Fin 10240) q from
    Shape.idx_ext₂ (off_eq e40) (off_zero e41)]
  refine (reluScaleBias_apply _ (dblk3 V c t) (bblk3 V c t) _ _ _ _ p q).trans
    (congrArg (max · 0) (congrArg₂ (· + ·) (congrArg₂ (· * ·) ?_ ?_) ?_))
  · exact acc3_last V c t.val t.isLt h7 p q _ rfl
  · exact congrArg (V c main_v19) (Shape.idx_ext₂ (off_eq e20) (off_zero e21))
  · exact congrArg (V c main_v56) (Shape.idx_ext₂ (off_zero e30) (off_zero e31))

-- row r lies in the block of the last point of row block r / 2560
theorem cover3 (i : S10240x512.Idx) :
    ∃ t : Fin cfg3.N, (cfg3.win 4).flush t = true ∧ i ∈ ((cfg3.win 4).blk t).view.set := by
  have h0 := idx2_lt0 i
  obtain ⟨t, ht⟩ : ∃ t : Fin cfg3.N, t.val = 8 * ((i 0).val / 2560) + 7 :=
    ⟨⟨8 * ((i 0).val / 2560) + 7, by rw [points3]; omega⟩, rfl⟩
  obtain ⟨-, -, -, -, -, -, -, -, e0, e1⟩ := idx3 t
  refine ⟨t, (flush3_4 t).mpr (by omega), ?_⟩
  show i ∈ ((View.whole main_v60).slice (win3_4.rect t)).set
  rw [View.set_slice_whole, Rect.mem_set_unit]
  exact rows_mem (B := 2560) (by decide) i (by omega) e1

theorem final3_apply (c : Dev nD) (r : Fin 10240) (o : Fin 512) :
    ((dat3 (F := Ideal) V c).arrAt 4 cfg3.N : S10240x512.Idx → EReal) (ix2 r o)
      = (max ((∑ j : Fin 10240, adj3 V c (ix2 r j) * feat3 V c (ix2 j o)) * scale3 V c (ix2 r 0) + bias3 V c (ix2 0 o)) 0 : EReal) :=
  congrFun ((dat3 V c).arrAt_eq_of_cover 4 (agg3 V c) (flushed3_eq V c) cover3) (ix2 r o)

end Cert.KernelIdeal.HandValue

end
-- ==== Proof.Value4.lean ====
import proofs.«417597_j20066087207444_2_alg».proof.Proof.Region4
import proofs.«417597_j20066087207444_2_alg».proof.Proof.ValueLib

noncomputable section

open scoped BigOperators

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.ValueLib

variable (V : (c : Dev nD) → (b : Ref sig .tc) → Buf (Elt Ideal) ((c : Thread nD τ).loc b))

abbrev rowsArr4 (c : Dev nD) : S10240x512.Idx → EReal := V c main_v60
abbrev wtsArr4 (c : Dev nD) : S512x128.Idx → EReal := V c main_v48
abbrev biasArr4 (c : Dev nD) : S1x128.Idx → EReal := V c main_v53
abbrev scaleArr4 (c : Dev nD) : S10240x1.Idx → EReal := V c main_v20

theorem idx4_facts : ∀ t : Fin cfg4.N,
      win4_0.index t 0 = win4_4.index t 0 ∧ win4_0.index t 1 = 0
    ∧ win4_1.index t 0 = 0 ∧ win4_1.index t 1 = win4_4.index t 1
    ∧ win4_2.index t 0 = 0 ∧ win4_2.index t 1 = win4_4.index t 1
    ∧ win4_3.index t 0 = win4_4.index t 0 ∧ win4_3.index t 1 = 0 :=
  (by decide +kernel : ∀ t : Fin grid4.N, _)

theorem idx4_onto : ∀ q : Fin 4, ∃ t : Fin cfg4.N, win4_4.index t = ![q.val, 0] :=
  (by decide +kernel : ∀ q : Fin 4, ∃ t : Fin grid4.N, win4_4.index t = ![q.val, 0])

def denseArr4 (c : Dev nD) : S10240x128.Idx → EReal := fun i =>
  (∑ k : Fin 512, rowsArr4 V c (ix2 (i 0) k) * wtsArr4 V c (ix2 k (i 1))) * scaleArr4 V c (ix2 (i 0) 0)
    + biasArr4 V c (ix2 0 (i 1))

-- every block entry is the array's entry under it, and the index maps line the four blocks up with the output's
theorem flushed4_eq (c : Dev nD) (t : Fin cfg4.N) :
    (dat4 (F := Ideal) V c).flushed 4 t = ((cfg4.win 4).blk t).view.read (Elt Ideal) (denseArr4 V c) := by
  obtain ⟨e00, e01, e10, e11, e20, e21, e30, e31⟩ := idx4_facts t
  funext j
  obtain ⟨p, o, rfl⟩ : ∃ (p : Fin 2560) (o : Fin 128), j = ix2 p o := ⟨j 0, j 1, eq_ix2 j⟩
  refine (scaleBias_apply _ (sblk4 V c t) (bblk4 V c t) _ _ _ _ p o).trans (congrArg₂ (· + ·) (congrArg₂ (· * ·)
    ((accFirst_apply (ablk4 V c t) (wblk4 V c t) _ _ _ _ p o).trans
      (Finset.sum_congr rfl fun k _ => congrArg₂ (· * ·) ?_ ?_)) ?_) ?_)
  · exact congrArg (V c main_v60) (Shape.idx_ext₂ (off_congr e00) (off_zero e01))
  · exact congrArg (V c main_v48) (Shape.idx_ext₂ (off_zero e10) (off_congr e11))
  · exact congrArg (V c main_v20) (Shape.idx_ext₂ (off_congr e30) (off_zero e31))
  · exact congrArg (V c main_v53) (Shape.idx_ext₂ (off_zero e20) (off_congr e21))

-- row r lies in row block r / 2560
theorem cover4 (i : S10240x128.Idx) :
    ∃ t : Fin cfg4.N, (cfg4.win 4).flush t = true ∧ i ∈ ((cfg4.win 4).blk t).view.set := by
  obtain ⟨t, ht⟩ := idx4_onto ⟨(i 0).val / 2560, by have := idx2_lt0 i; omega⟩
  refine ⟨t, flush4_4 t, ?_⟩
  show i ∈ ((View.whole main_v61).slice (win4_4.rect t)).set
  rw [View.set_slice_whole, Rect.mem_set_unit]
  exact rows_mem (B := 2560) (by decide) i (congrFun ht 0) (congrFun ht 1)

theorem final4_apply (c : Dev nD) (r : Fin 10240) (o : Fin 128) :
    ((dat4 (F := Ideal) V c).arrAt 4 cfg4.N : S10240x128.Idx → EReal) (ix2 r o)
      = (∑ k : Fin 512, rowsArr4 V c (ix2 r k) * wtsArr4 V c (ix2 k o)) * scaleArr4 V c (ix2 r 0)
          + biasArr4 V c (ix2 0 o) :=
  congrFun ((dat4 (F := Ideal) V c).arrAt_eq_of_cover 4 (denseArr4 V c) (fun t _ => flushed4_eq V c t) cover4) (ix2 r o)

end Cert.KernelIdeal.HandValue

end
-- ==== Proof.LibScatterSlab.lean ====
import Idealize.ShloMosaic.PureOps
import Idealize.ShloMosaic.Lib.ValueIdx
import proofs.«417597_j20066087207444_2_alg».proof.Proof.LibScatterFold

noncomputable section

namespace Cert.LibScatterSlab

open Idealize.ShloMosaic Idealize.ShloMosaic.ValueIdx Cert.LibScatterFold

variable {α : Type}

-- With every start word zero an update lands where its window coordinates say, so the one update whose window is i overwrites i.
theorem scatter_slab_apply {s si u : Shape} {w : Nat} (d : ScatterDims s si u) (x : s.Idx → α) (idx : IVec si w)
    (hidx : ∀ k, idx k = 0#w) (upd : u.Idx → α) (i : s.Idx) (j₀ : u.Idx)
    (h : ∀ j, (∀ a, d.window j a = (i a).val) ↔ j = j₀) :
    Host.scatter d (fun _ b => b) x idx upd i = upd j₀ := by
  have hs : ∀ j a, d.start j idx a = 0 := fun j a => by
    unfold ScatterDims.start
    split
    · rw [hidx]; exact BitVec.toInt_zero
    · rfl
  refine scatter_set_apply_of_unique d x idx upd i j₀ fun j => ?_
  rw [resultIdx?_eq_some_iff, ← h j]
  simp only [hs, zero_add, Nat.cast_inj]

abbrev vecPrefixDims (N K : Nat)
    (wf : ScatterDims.WF ⟨1, ![N]⟩ ⟨1, ![1]⟩ ⟨1, ![K]⟩ [0] [] [0] 0) :
    ScatterDims ⟨1, ![N]⟩ ⟨1, ![1]⟩ ⟨1, ![K]⟩ where
  updateWindowDims := [0]
  insertedWindowDims := []
  scatterDimsToOperandDims := [0]
  indexVectorDim := 0
  wf := wf

theorem scatter_vecPrefix_apply_inside {N K w : Nat}
    (wf : ScatterDims.WF ⟨1, ![N]⟩ ⟨1, ![1]⟩ ⟨1, ![K]⟩ [0] [] [0] 0)
    (x : (⟨1, ![N]⟩ : Shape).Idx → α) (idx : IVec ⟨1, ![1]⟩ w) (hidx : ∀ k, idx k = 0#w)
    (upd : (⟨1, ![K]⟩ : Shape).Idx → α) (i : Fin N) (hi : i.val < K) :
    Host.scatter (vecPrefixDims N K wf) (fun _ b => b) x idx upd (ix1 i) = upd (ix1 ⟨i.val, hi⟩) := by
  refine scatter_slab_apply _ x idx hidx upd _ _ fun j =>
    ⟨fun h => (eq_ix1 j).trans (congrArg ix1 (Fin.ext (h 0))), ?_⟩
  rintro rfl a
  match a with
  | ⟨0, _⟩ => rfl

abbrev colPrefixDims (R N K : Nat)
    (wf : ScatterDims.WF ⟨2, ![R, N]⟩ ⟨1, ![1]⟩ ⟨2, ![R, K]⟩ [0, 1] [] [1] 0) :
    ScatterDims ⟨2, ![R, N]⟩ ⟨1, ![1]⟩ ⟨2, ![R, K]⟩ where
  updateWindowDims := [0, 1]
  insertedWindowDims := []
  scatterDimsToOperandDims := [1]
  indexVectorDim := 0
  wf := wf

theorem scatter_colPrefix_apply_inside {R N K w : Nat}
    (wf : ScatterDims.WF ⟨2, ![R, N]⟩ ⟨1, ![1]⟩ ⟨2, ![R, K]⟩ [0, 1] [] [1] 0)
    (x : (⟨2, ![R, N]⟩ : Shape).Idx → α) (idx : IVec ⟨1, ![1]⟩ w) (hidx : ∀ k, idx k = 0#w)
    (upd : (⟨2, ![R, K]⟩ : Shape).Idx → α) (r : Fin R) (i : Fin N) (hi : i.val < K) :
    Host.scatter (colPrefixDims R N K wf) (fun _ b => b) x idx upd (ix2 r i) = upd (ix2 r ⟨i.val, hi⟩) := by
  refine scatter_slab_apply _ x idx hidx upd _ _ fun j =>
    ⟨fun h => (eq_ix2 j).trans (congrArg₂ ix2 (Fin.ext (h 0)) (Fin.ext (h 1))), ?_⟩
  rintro rfl a
  match a with
  | ⟨0, _⟩ => rfl
  | ⟨1, _⟩ => rfl

abbrev rowZeroPrefixDims (N K : Nat)
    (wf : ScatterDims.WF ⟨2, ![1, N]⟩ ⟨1, ![2]⟩ ⟨1, ![K]⟩ [0] [0] [0, 1] 0) :
    ScatterDims ⟨2, ![1, N]⟩ ⟨1, ![2]⟩ ⟨1, ![K]⟩ where
  updateWindowDims := [0]
  insertedWindowDims := [0]
  scatterDimsToOperandDims := [0, 1]
  indexVectorDim := 0
  wf := wf

theorem scatter_rowZeroPrefix_apply_inside {N K w : Nat}
    (wf : ScatterDims.WF ⟨2, ![1, N]⟩ ⟨1, ![2]⟩ ⟨1, ![K]⟩ [0] [0] [0, 1] 0)
    (x : (⟨2, ![1, N]⟩ : Shape).Idx → α) (idx : IVec ⟨1, ![2]⟩ w) (hidx : ∀ k, idx k = 0#w)
    (upd : (⟨1, ![K]⟩ : Shape).Idx → α) (r : Fin 1) (i : Fin N) (hi : i.val < K) :
    Host.scatter (rowZeroPrefixDims N K wf) (fun _ b => b) x idx upd (ix2 r i) = upd (ix1 ⟨i.val, hi⟩) := by
  refine scatter_slab_apply _ x idx hidx upd _ _ fun j =>
    ⟨fun h => (eq_ix1 j).trans (congrArg ix1 (Fin.ext (h 1))), ?_⟩
  rintro rfl a
  match a with
  | ⟨0, _⟩ => exact (Fin.val_eq_zero r).symm
  | ⟨1, _⟩ => rfl

end Cert.LibScatterSlab

end
-- ==== Proof.KHost.lean ====
import proofs.«417597_j20066087207444_2_alg».proof.Proof.Gen.KernelIdeal.Regions
import proofs.«417597_j20066087207444_2_alg».proof.Proof.Spec
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal
import Idealize.ShloMosaic.PureOps.IdealRules
import Mathlib.Algebra.BigOperators.Group.Finset.Basic
import proofs.«417597_j20066087207444_2_alg».proof.Proof.LibScatterSlab
import proofs.«417597_j20066087207444_2_alg».proof.Proof.LibScatterIdx

set_option maxRecDepth 1072

noncomputable section

namespace Cert.KernelIdeal.KHost

open Cert.KernelIdeal Cert.KernelIdeal.Gen Idealize.ShloMosaic Idealize.ShloMosaic.TcCoe Idealize.ShloMosaic.ValueIdx
open Idealize.ShloMosaic.StableHlo

-- A word in the node range, read as a node, is its own value.
theorem toInt_eq_iff_node_eq (w : BitVec 32) (h0 : 0 ≤ w.toInt) (h1 : w.toInt < 10000) (i : Fin 10000) :
    w.toInt = (i.val : ℤ) ↔ Cert.Spec.node w = i := by
  rw [Fin.ext_iff]
  show _ ↔ min w.toInt.toNat 9999 = i.val
  omega

-- A word that is not negative is not wrapped around, whatever the axis length k.
theorem wrap_of_nonneg (w k : BitVec 32) (h0 : 0 ≤ w.toInt) :
    Scalar.select (IntOp.cmpi .slt w 0#32) (IntOp.addi w k) w = w := by
  have hs : w.slt 0#32 = false := by
    rw [BitVec.slt_eq_decide, BitVec.toInt_zero, decide_eq_false_iff_not]; omega
  have hc : IntOp.cmpi .slt w 0#32 = 0#1 := by
    show BitVec.ofBool (w.slt 0#32) = 0#1
    rw [hs]; rfl
  rw [hc]; exact select_zero _ _

abbrev splatI (t : Shape) (h : S_.BroadcastsInDim t ![]) (b : BitVec 32) : IVec t 32 :=
  broadcastInDim (s := S_) t ![] h (constantI S_ 32 b)

theorem splatI_apply (t : Shape) (h : S_.BroadcastsInDim t ![]) (b : BitVec 32) (j : t.Idx) : splatI t h b j = b :=
  broadcastInDim_scalar_apply h _ j

abbrev splatF (t : Shape) (h : S_.BroadcastsInDim t ![]) (b : BitVec 32) : FVec Ideal t .f32 :=
  broadcastInDim (s := S_) t ![] h (constant (F := Ideal) S_ .f32 b)

theorem splatF_zero_apply (t : Shape) (h : S_.BroadcastsInDim t ![]) (j : t.Idx) : splatF t h 0x00000000#32 j = 0 :=
  (broadcastInDim_scalar_apply h _ j).trans Ideal.ofBits_zero_f32

theorem splatF_one_apply (t : Shape) (h : S_.BroadcastsInDim t ![]) (j : t.Idx) : splatF t h 0x3F800000#32 j = 1 :=
  (broadcastInDim_scalar_apply h _ j).trans Ideal.ofBits_one_f32

theorem col_apply {α : Type} {N : ℕ} (hN : N ≠ 1)
    (h : (⟨1, ![N]⟩ : Shape).BroadcastsInDim ⟨2, ![N, 1]⟩ (![0] : Fin 1 → Fin 2))
    (x : (⟨1, ![N]⟩ : Shape).Idx → α) (e : Fin N) :
    broadcastInDim ⟨2, ![N, 1]⟩ ![0] h x (ix2 e (0 : Fin 1)) = x (ix1 e) :=
  broadcastInDim_apply _ _ _ (ix2 e (0 : Fin 1)) (ix1 e) (by
    intro a
    match a with
    | ⟨0, _⟩ => show e.val = if N = 1 then 0 else e.val; rw [if_neg hN])

theorem row_apply {α : Type} (ei : S2x160000.Idx → α) (r : Fin 2) (hs : S2x160000.Slices ![r.val, 0] S1x160000)
    (hc : S1x160000.ShapeCasts S160000) (e : Fin 160000) :
    shapeCast S160000 (extractStridedSlice S1x160000 ![r.val, 0] ei hs) hc (ix1 e) = ei (ix2 r e) := by
  refine (shapeCast_1a_a_apply _ _ e).trans ?_
  exact extractStridedSlice_apply _ _ _ (ix2 (0 : Fin 1) e) (ix2 r e) (by
    intro a
    match a with
    | ⟨0, _⟩ => rfl
    | ⟨1, _⟩ => show e.val = 0 + e.val; omega)

theorem addUnit_apply {α : Type} (x : S10240.Idx → α) (h : S10240.ShapeCasts S10240x1) (r : Fin 10240) :
    shapeCast S10240x1 x h (ix2 r (0 : Fin 1)) = x (ix1 r) :=
  shapeCast_apply x h (ix2 r (0 : Fin 1)) (ix1 r) (by
    rw [Shape.rowMajor_val_one, Shape.rowMajor_val_two]; show r.val = r.val * 1 + 0; omega)

theorem pad_rows_apply {α : Type} (x : S10000x512.Idx → α) {u : Shape} (v : u.Idx → α)
    (h : S10000x512.Pads (![0, 0] : Fin 2 → Nat) ![240, 0] ![0, 0] S10240x512) (hu : 0 < u.numel)
    (r : Fin 10240) (k : Fin 512) (hr : r.val < 10000) :
    pad S10240x512 ![0, 0] ![240, 0] ![0, 0] x v h hu (ix2 r k) = x (ix2 ⟨r.val, hr⟩ k) :=
  pad_apply_of_inside _ _ _ x v h hu (ix2 r k) (ix2 ⟨r.val, hr⟩ k) (by
    intro a
    match a with
    | ⟨0, _⟩ => show r.val = 0 + r.val * (0 + 1); omega
    | ⟨1, _⟩ => show k.val = 0 + k.val * (0 + 1); omega)

theorem hostRsqrt_apply {s : Shape} (x : FVec Ideal s .f32) (i : s.Idx) : Host.rsqrt x i = Ideal.rsqrt (x i) := rfl

variable (m : (ℓ : Loc nD τ sig) → Buf (Elt Ideal) ℓ) (c : Dev nD)

abbrev a0 : S10000x512.Idx → EReal := m ((c.tc : Thread nD τ).loc main_arg0)
abbrev a1 : S2x160000.Idx → BitVec 32 := m ((c.tc : Thread nD τ).loc main_arg1)
abbrev a2 : S512x512.Idx → EReal := m ((c.tc : Thread nD τ).loc main_arg2)
abbrev a3 : S512.Idx → EReal := m ((c.tc : Thread nD τ).loc main_arg3)
abbrev a4 : S512x512.Idx → EReal := m ((c.tc : Thread nD τ).loc main_arg4)
abbrev a5 : S512.Idx → EReal := m ((c.tc : Thread nD τ).loc main_arg5)
abbrev a6 : S512x16.Idx → EReal := m ((c.tc : Thread nD τ).loc main_arg6)
abbrev a7 : S16.Idx → EReal := m ((c.tc : Thread nD τ).loc main_arg7)

theorem V2_arg (r : Ref sig .tc) (h1 : r ∉ hostOps0_1_W) (h0 : r ∉ hostOps0_W) :
    V2 (F := Ideal) m c r = V0 m c r :=
  (V2_of m c r h1).trans (V1_of m c r h0)

theorem V3_first (r : Ref sig .tc) (h2 : r ∉ hostOps0_2_W) (h1 : r ∉ hostOps0_1_W) :
    V3 (F := Ideal) m c r = V1 m c r :=
  (V3_of m c r h2).trans (V2_of m c r h1)

def headWeights (w : S512x16.Idx → EReal) : FVec Ideal S512x128 .f32 :=
  Host.scatter scatter_S512x128_S1_S512x16_01_n_1_0 (fun _ b => b) (splatF S512x128 bcast_S_S512x128 0x00000000#32)
    (splatI S1 bcast_S_S1 0#32) w

def zeroPair : IVec S2 32 :=
  concatenate S2 0 [⟨S1, splatI S1 bcast_S_S1 0#32⟩, ⟨S1, splatI S1 bcast_S_S1 0#32⟩] concatenates_S1_S1_S2_d0

theorem zeroPair_apply (k : S2.Idx) : zeroPair k = 0#32 :=
  congrFun (show zeroPair = constantI S2 32 0#32 from IdealRules.zero_identity.concatenate_zero _ _ _ _ fun p hp => by
    rcases List.mem_pair.mp hp with rfl | rfl <;> exact funext fun j => splatI_apply S1 bcast_S_S1 _ j) k

def headBias (b : S16.Idx → EReal) : FVec Ideal S1x128 .f32 :=
  Host.scatter scatter_S1x128_S2_S16_0_0_01_0 (fun _ b => b) (splatF S1x128 bcast_S_S1x128 0x00000000#32) zeroPair b

theorem host2 (W : Valuation τ sig (Elt Ideal)) :
    (after (hostOps0_2 (F := Ideal)) W main_v42 : S10240x512.Idx → EReal)
        = truncf (F := Ideal) .bf16 (W main_v41 : S10240x512.Idx → EReal) bitsLt_bf16_f32
    ∧ (after (hostOps0_2 (F := Ideal)) W main_v43 : S512x512.Idx → EReal)
        = truncf (F := Ideal) .bf16 (W main_arg2 : S512x512.Idx → EReal) bitsLt_bf16_f32
    ∧ (after (hostOps0_2 (F := Ideal)) W main_v44 : S512x512.Idx → EReal)
        = truncf (F := Ideal) .bf16 (W main_arg4 : S512x512.Idx → EReal) bitsLt_bf16_f32
    ∧ (after (hostOps0_2 (F := Ideal)) W main_v48 : S512x128.Idx → EReal)
        = truncf (F := Ideal) .bf16 (headWeights (W main_arg6 : S512x16.Idx → EReal)) bitsLt_bf16_f32
    ∧ (after (hostOps0_2 (F := Ideal)) W main_v53 : S1x128.Idx → EReal) = headBias (W main_arg7 : S16.Idx → EReal)
    ∧ (after (hostOps0_2 (F := Ideal)) W main_v54 : S1x512.Idx → EReal) = splatF S1x512 bcast_S_S1x512 0x00000000#32
    ∧ (after (hostOps0_2 (F := Ideal)) W main_v55 : S1x512.Idx → EReal)
        = shapeCast S1x512 (W main_arg3 : S512.Idx → EReal) shapeCasts_S512_S1x512
    ∧ (after (hostOps0_2 (F := Ideal)) W main_v56 : S1x512.Idx → EReal)
        = shapeCast S1x512 (W main_arg5 : S512.Idx → EReal) shapeCasts_S512_S1x512 := by
  dsimp only [hostOps0_2]
  refine ⟨?_, ?_, ?_, ?_, ?_, ?_, ?_, ?_⟩ <;> (after_results <;> rfl)

theorem v43_apply (k o : Fin 512) :
    (V3 (F := Ideal) m c main_v43 : S512x512.Idx → EReal) (ix2 k o) = a2 m c (ix2 k o) := by
  rw [show (V3 (F := Ideal) m c main_v43 : S512x512.Idx → EReal) = _ from (host2 _).2.1, V2_arg m c main_arg2 (by decide) (by decide)]
  exact truncf_apply _ _ _

theorem v44_apply (k o : Fin 512) :
    (V3 (F := Ideal) m c main_v44 : S512x512.Idx → EReal) (ix2 k o) = a4 m c (ix2 k o) := by
  rw [show (V3 (F := Ideal) m c main_v44 : S512x512.Idx → EReal) = _ from (host2 _).2.2.1, V2_arg m c main_arg4 (by decide) (by decide)]
  exact truncf_apply _ _ _

theorem v54_apply (o : Fin 512) : (V3 (F := Ideal) m c main_v54 : S1x512.Idx → EReal) (ix2 (0 : Fin 1) o) = (0 : EReal) := by
  rw [show (V3 (F := Ideal) m c main_v54 : S1x512.Idx → EReal) = _ from (host2 _).2.2.2.2.2.1]
  exact splatF_zero_apply _ _ _

theorem v55_apply (o : Fin 512) :
    (V3 (F := Ideal) m c main_v55 : S1x512.Idx → EReal) (ix2 (0 : Fin 1) o) = a3 m c (ix1 o) := by
  rw [show (V3 (F := Ideal) m c main_v55 : S1x512.Idx → EReal) = _ from (host2 _).2.2.2.2.2.2.1, V2_arg m c main_arg3 (by decide) (by decide)]
  exact shapeCast_a_1a_apply _ _ _ o

theorem v56_apply (o : Fin 512) :
    (V3 (F := Ideal) m c main_v56 : S1x512.Idx → EReal) (ix2 (0 : Fin 1) o) = a5 m c (ix1 o) := by
  rw [show (V3 (F := Ideal) m c main_v56 : S1x512.Idx → EReal) = _ from (host2 _).2.2.2.2.2.2.2, V2_arg m c main_arg5 (by decide) (by decide)]
  exact shapeCast_a_1a_apply _ _ _ o

theorem v20_apply (r : Fin 10240) : (V3 (F := Ideal) m c main_v20 : S10240x1.Idx → EReal) (ix2 r (0 : Fin 1)) = (1 : EReal) := by
  have e : ∀ W : Valuation τ sig (Elt Ideal), (after (hostOps0 (F := Ideal)) W main_v20 : S10240x1.Idx → EReal)
      = splatF S10240x1 bcast_S_S10240x1 0x3F800000#32 := by
    intro W; dsimp only [hostOps0]; after_results_simp <;> rfl
  rw [show (V3 (F := Ideal) m c main_v20 : S10240x1.Idx → EReal) = _ from
    (V3_first m c main_v20 (by decide) (by decide)).trans (e (V0 m c))]
  exact splatF_one_apply _ _ _

theorem v42_apply (r : Fin 10240) (k : Fin 512) (hr : r.val < 10000) :
    (V3 (F := Ideal) m c main_v42 : S10240x512.Idx → EReal) (ix2 r k) = a0 m c (ix2 ⟨r.val, hr⟩ k) := by
  have e1 : ∀ W : Valuation τ sig (Elt Ideal), (after (hostOps0_1 (F := Ideal)) W main_v41 : S10240x512.Idx → EReal)
      = pad S10240x512 ![0, 0] ![240, 0] ![0, 0] (W main_arg0 : S10000x512.Idx → EReal)
          (sitofp (F := Ideal) .f32 (W main_c_12 : S_.Idx → BitVec 32))
          pads_S10000x512_S10240x512_02400_000 h_S_ := by
    intro W; dsimp only [hostOps0_1]; after_results <;> rfl
  rw [show (V3 (F := Ideal) m c main_v42 : S10240x512.Idx → EReal) = _ from (host2 _).1,
    show (V2 (F := Ideal) m c main_v41 : S10240x512.Idx → EReal) = _ from e1 _, V1_of m c main_arg0 (by decide)]
  exact (truncf_apply (ψ := .bf16) _ bitsLt_bf16_f32 _).trans (pad_rows_apply _ _ _ _ r k hr)

def dstWords (ei : S2x160000.Idx → BitVec 32) : IVec S160000 32 :=
  shapeCast S160000 (extractStridedSlice S1x160000 ![1, 0] ei slices_S2x160000_S1x160000_1_0) shapeCasts_S1x160000_S160000

def dstWrapped (ei : S2x160000.Idx → BitVec 32) : IVec S160000 32 :=
  select (cmpi .slt (dstWords ei) (splatI S160000 bcast_S_S160000 0#32))
    (addi (dstWords ei) (splatI S160000 bcast_S_S160000 10000#32)) (dstWords ei)

def dstCol (ei : S2x160000.Idx → BitVec 32) : IVec S160000x1 32 :=
  broadcastInDim S160000x1 ![0] bcast_S160000_S160000x1_0 (dstWrapped ei)

def degree (ei : S2x160000.Idx → BitVec 32) : FVec Ideal S10000 .f32 :=
  addf (Host.scatterAdd scatter_S10000_S160000x1_S160000_n_0_0_1 (splatF S10000 bcast_S_S10000 0x00000000#32) (dstCol ei)
      (splatF S160000 bcast_S_S160000 0x3F800000#32))
    (splatF S10000 bcast_S_S10000 0x3F800000#32)

def degreePadded (ei : S2x160000.Idx → BitVec 32) : FVec Ideal S10240 .f32 :=
  Host.scatter scatter_S10240_S1_S10000_0_n_0_0 (fun _ b => b) (splatF S10240 bcast_S_S10240 0x3F800000#32)
    (splatI S1 bcast_S_S1 0#32) (degree ei)

def dinvCol (ei : S2x160000.Idx → BitVec 32) : FVec Ideal S10240x1 .f32 :=
  shapeCast S10240x1 (Host.rsqrt (degreePadded ei)) shapeCasts_S10240_S10240x1

theorem dstWrapped_apply (ei : S2x160000.Idx → BitVec 32) (hin : Cert.Spec.InRange ei) (e : Fin 160000) :
    dstWrapped ei (ix1 e) = ei (ix2 (1 : Fin 2) e) := by
  have hw : dstWords ei (ix1 e) = ei (ix2 (1 : Fin 2) e) := row_apply ei 1 _ _ e
  show Scalar.select (IntOp.cmpi .slt (dstWords ei (ix1 e)) (splatI S160000 bcast_S_S160000 0#32 (ix1 e)))
      (IntOp.addi (dstWords ei (ix1 e)) (splatI S160000 bcast_S_S160000 10000#32 (ix1 e))) (dstWords ei (ix1 e)) = _
  rw [hw, splatI_apply]
  exact wrap_of_nonneg _ _ (hin 1 e).1

-- An edge's scatter index is node i's number exactly when the edge ends in i.
theorem hit_iff (ei : S2x160000.Idx → BitVec 32) (hin : Cert.Spec.InRange ei) (e : Fin 160000) (i : Fin 10000) :
    (dstCol ei (ix2 e (0 : Fin 1))).toInt = (i.val : ℤ) ↔ Cert.Spec.dstOf ei e = i := by
  rw [show dstCol ei (ix2 e (0 : Fin 1)) = _ from col_apply (by decide) _ _ e, dstWrapped_apply ei hin e]
  exact toInt_eq_iff_node_eq _ (hin 1 e).1 (hin 1 e).2 i

-- The scatter adds a one at node i for each edge whose index is i's number: the edges ending in i.
theorem degree_apply (ei : S2x160000.Idx → BitVec 32) (hin : Cert.Spec.InRange ei) (i : Fin 10000) :
    degree ei (ix1 i) = Cert.Spec.deg (Cert.Spec.dstOf ei) i := by
  unfold Cert.Spec.deg
  refine (congrArg (· + splatF S10000 bcast_S_S10000 0x3F800000#32 (ix1 i))
    (Cert.LibScatterIdx.scatterAdd_vec_apply scatter_S10000_S160000x1_S160000_n_0_0_1_wf _ (dstCol ei) _ i)).trans ?_
  rw [splatF_zero_apply, splatF_one_apply, Finset.sum_congr
    (Finset.filter_congr fun e _ => hit_iff ei hin e i) fun e _ => splatF_one_apply S160000 bcast_S_S160000 (ix1 e)]

theorem dinvCol_apply (ei : S2x160000.Idx → BitVec 32) (hin : Cert.Spec.InRange ei) (r : Fin 10240) (hr : r.val < 10000) :
    dinvCol ei (ix2 r (0 : Fin 1)) = Cert.Spec.dinv (Cert.Spec.dstOf ei) ⟨r.val, hr⟩ := by
  have h1 : dinvCol ei (ix2 r (0 : Fin 1)) = Host.rsqrt (degreePadded ei) (ix1 r) := addUnit_apply _ _ r
  have h3 : degreePadded ei (ix1 r) = degree ei (ix1 ⟨r.val, hr⟩) :=
    Cert.LibScatterSlab.scatter_vecPrefix_apply_inside scatter_S10240_S1_S10000_0_n_0_0_wf _ _
      (fun k => splatI_apply _ _ _ k) _ r hr
  rw [h1, hostRsqrt_apply, h3, degree_apply ei hin]
  rfl

theorem v19_apply (hin : Cert.Spec.InRange (a1 m c)) (r : Fin 10240) (hr : r.val < 10000) :
    (V3 (F := Ideal) m c main_v19 : S10240x1.Idx → EReal) (ix2 r (0 : Fin 1))
      = Cert.Spec.dinv (Cert.Spec.dstOf (a1 m c)) ⟨r.val, hr⟩ := by
  have e : ∀ W : Valuation τ sig (Elt Ideal), (after (hostOps0 (F := Ideal)) W main_v19 : S10240x1.Idx → EReal)
      = dinvCol (W main_arg1 : S2x160000.Idx → BitVec 32) := by
    intro W; dsimp only [hostOps0]; after_results_simp <;> rfl
  exact (congrFun ((V3_first m c main_v19 (by decide) (by decide)).trans (e (V0 m c))) _).trans
    (dinvCol_apply (a1 m c) hin r hr)

theorem v48_apply (k : Fin 512) (o : Fin 128) (ho : o.val < 16) :
    (V3 (F := Ideal) m c main_v48 : S512x128.Idx → EReal) (ix2 k o) = a6 m c (ix2 k ⟨o.val, ho⟩) := by
  rw [show (V3 (F := Ideal) m c main_v48 : S512x128.Idx → EReal) = _ from (host2 _).2.2.2.1, V2_arg m c main_arg6 (by decide) (by decide)]
  exact (truncf_apply (ψ := .bf16) _ bitsLt_bf16_f32 _).trans
    (Cert.LibScatterSlab.scatter_colPrefix_apply_inside scatter_S512x128_S1_S512x16_01_n_1_0_wf _ _
      (fun j => splatI_apply _ _ _ j) _ k o ho)

theorem v53_apply (o : Fin 128) (ho : o.val < 16) :
    (V3 (F := Ideal) m c main_v53 : S1x128.Idx → EReal) (ix2 (0 : Fin 1) o) = a7 m c (ix1 ⟨o.val, ho⟩) := by
  rw [show (V3 (F := Ideal) m c main_v53 : S1x128.Idx → EReal) = _ from (host2 _).2.2.2.2.1, V2_arg m c main_arg7 (by decide) (by decide)]
  exact Cert.LibScatterSlab.scatter_rowZeroPrefix_apply_inside scatter_S1x128_S2_S16_0_0_01_0_wf _ _ zeroPair_apply _
    (0 : Fin 1) o ho

end Cert.KernelIdeal.KHost

end
-- ==== Proof.KAdj.lean ====
import proofs.«417597_j20066087207444_2_alg».proof.Proof.Gen.KernelIdeal.Regions
import proofs.«417597_j20066087207444_2_alg».proof.Proof.Spec
import proofs.«417597_j20066087207444_2_alg».proof.Proof.LibScatterFold
import proofs.«417597_j20066087207444_2_alg».proof.Proof.LibScatterIdx
import proofs.«417597_j20066087207444_2_alg».proof.Proof.GcnAlgebra
import proofs.«417597_j20066087207444_2_alg».proof.Proof.KHost
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal
import Mathlib.Algebra.BigOperators.Fin

noncomputable section

namespace Cert.KernelIdeal.KAdj

open Cert.KernelIdeal Cert.KernelIdeal.Gen Idealize.ShloMosaic Idealize.ShloMosaic.TcCoe Idealize.ShloMosaic.ValueIdx
  Idealize.ShloMosaic.StableHlo
open Cert.Spec (InRange srcOf dstOf node)
open Cert.LibScatterFold (scatter_addi_count_toInt)
open Cert.KernelIdeal.KHost (a1 V3_first row_apply col_apply wrap_of_nonneg toInt_eq_iff_node_eq dstWords)
open Finset

def edgeRow0 (x1 : S2x160000.Idx → BitVec 32) : S160000.Idx → BitVec 32 :=
  shapeCast S160000 (extractStridedSlice S1x160000 ![0, 0] x1 slices_S2x160000_S1x160000_0_0) shapeCasts_S1x160000_S160000

def withLoops (v : S160000.Idx → BitVec 32) : S170000.Idx → BitVec 32 :=
  concatenate S170000 0 [⟨S160000, v⟩, ⟨S10000, iotaInDim S10000 32 0⟩] concatenates_S160000_S10000_S170000_d0

def wrap (v : S170000.Idx → BitVec 32) : S170000.Idx → BitVec 32 :=
  select (cmpi .slt v (broadcastInDim S170000 ![] bcast_S_S170000 (constantI S_ 32 0#32)))
    (addi v (broadcastInDim S170000 ![] bcast_S_S170000 (constantI S_ 32 10240#32))) v

def pairs (r c : S170000.Idx → BitVec 32) : S170000x2.Idx → BitVec 32 :=
  concatenate S170000x2 1 [⟨S170000x1, broadcastInDim S170000x1 ![0] bcast_S170000_S170000x1_0 r⟩,
    ⟨S170000x1, broadcastInDim S170000x1 ![0] bcast_S170000_S170000x1_0 c⟩] concatenates_S170000x1_S170000x1_S170000x2_d1

def landing (x1 : S2x160000.Idx → BitVec 32) : S170000x2.Idx → BitVec 32 :=
  pairs (wrap (withLoops (dstWords x1))) (wrap (withLoops (edgeRow0 x1)))

theorem withLoops_apply_edge (v : S160000.Idx → BitVec 32) (e : Fin 160000) :
    withLoops v (ix1 (⟨e.val, by omega⟩ : Fin 170000)) = v (ix1 e) := by
  unfold withLoops
  exact concatenate_pair_apply_left (t := S170000) (s₁ := S160000) (s₂ := S10000) (0 : Fin 1) v _ concatenates_S160000_S10000_S170000_d0 _ rfl (ix1 e)
    (fun b => match b with | ⟨0, _⟩ => rfl)

theorem withLoops_apply_loop (v : S160000.Idx → BitVec 32) (q : Fin 10000) :
    withLoops v (ix1 (⟨160000 + q.val, by omega⟩ : Fin 170000)) = BitVec.ofNat 32 q.val := by
  unfold withLoops
  refine (concatenate_pair_apply_right (t := S170000) (s₁ := S160000) (s₂ := S10000) (0 : Fin 1) v _ concatenates_S160000_S10000_S170000_d0 _ rfl rfl (ix1 q)
    (fun b hb => absurd (Subsingleton.elim _ _) hb) ?_).trans ?_
  · show q.val + 160000 = 160000 + q.val; omega
  · exact iotaInDim_apply 32 (0 : Fin 1) (ix1 q)

theorem wrap_apply_of_nonneg (v : S170000.Idx → BitVec 32) (n : S170000.Idx) (h : 0 ≤ (v n).toInt) :
    wrap v n = v n := by
  show Scalar.select (IntOp.cmpi .slt (v n) (broadcastInDim S170000 ![] bcast_S_S170000 (constantI S_ 32 0#32) n)) _ (v n)
    = v n
  rw [broadcastInDim_scalar_apply bcast_S_S170000 (constantI S_ 32 0#32)]
  exact wrap_of_nonneg _ _ h

theorem pairs_apply_zero (r c : S170000.Idx → BitVec 32) (n : Fin 170000) :
    pairs r c (ix2 n (0 : Fin 2)) = r (ix1 n) := by
  unfold pairs
  exact (concatenate_pair_apply_left (t := S170000x2) (s₁ := S170000x1) (s₂ := S170000x1) (1 : Fin 2) _ _ concatenates_S170000x1_S170000x1_S170000x2_d1 (ix2 n (0 : Fin 2)) rfl
    (ix2 n (0 : Fin 1)) (fun b => match b with | ⟨0, _⟩ => rfl | ⟨1, _⟩ => rfl)).trans (col_apply (by decide) _ r n)

theorem pairs_apply_one (r c : S170000.Idx → BitVec 32) (n : Fin 170000) :
    pairs r c (ix2 n (1 : Fin 2)) = c (ix1 n) := by
  unfold pairs
  exact (concatenate_pair_apply_right (t := S170000x2) (s₁ := S170000x1) (s₂ := S170000x1) (1 : Fin 2) _ _ concatenates_S170000x1_S170000x1_S170000x2_d1 (ix2 n (1 : Fin 2)) rfl rfl
    (ix2 n (0 : Fin 1)) (fun b hb => match b, hb with | ⟨0, _⟩, _ => rfl | ⟨1, _⟩, hb => absurd rfl hb) rfl).trans
    (col_apply (by decide) _ c n)

theorem card_filter_split (P : Fin 170000 → Prop) [DecidablePred P] :
    (univ.filter P).card
      = (univ.filter fun e : Fin 160000 => P ⟨e.val, by omega⟩).card
        + (univ.filter fun q : Fin 10000 => P ⟨160000 + q.val, by omega⟩).card := by
  rw [Finset.card_filter, Finset.card_filter, Finset.card_filter]
  exact Fin.sum_univ_add (a := 160000) (b := 10000) (fun n : Fin 170000 => if P n then 1 else 0)

theorem card_filter_pos (P : S170000.Idx → Prop) [DecidablePred P] :
    (univ.filter P).card = (univ.filter fun n : Fin 170000 => P (ix1 n)).card := by
  refine Finset.card_equiv idxEquiv1 (fun j => ?_)
  simp only [mem_filter, mem_univ, true_and]
  exact (congrArg P (eq_ix1 j)).to_iff

-- Position e below 160000 is edge e, and no word of an edge list in range is wrapped.
theorem landing_edge (x1 : S2x160000.Idx → BitVec 32) (hin : InRange x1) (e : Fin 160000) :
    landing x1 (ix2 (⟨e.val, by omega⟩ : Fin 170000) (0 : Fin 2)) = x1 (ix2 (1 : Fin 2) e)
    ∧ landing x1 (ix2 (⟨e.val, by omega⟩ : Fin 170000) (1 : Fin 2)) = x1 (ix2 (0 : Fin 2) e) := by
  unfold landing
  rw [pairs_apply_zero, pairs_apply_one]
  have h1 := (withLoops_apply_edge (dstWords x1) e).trans (row_apply x1 1 _ _ e)
  have h0 := (withLoops_apply_edge (edgeRow0 x1) e).trans (row_apply x1 0 _ _ e)
  constructor
  · rw [wrap_apply_of_nonneg _ _ (by rw [h1]; exact (hin 1 e).1), h1]
  · rw [wrap_apply_of_nonneg _ _ (by rw [h0]; exact (hin 0 e).1), h0]

-- Position 160000 + q is the self-loop of node q.
theorem landing_loop (x1 : S2x160000.Idx → BitVec 32) (q : Fin 10000) :
    landing x1 (ix2 (⟨160000 + q.val, by omega⟩ : Fin 170000) (0 : Fin 2)) = BitVec.ofNat 32 q.val
    ∧ landing x1 (ix2 (⟨160000 + q.val, by omega⟩ : Fin 170000) (1 : Fin 2)) = BitVec.ofNat 32 q.val := by
  unfold landing
  rw [pairs_apply_zero, pairs_apply_one]
  have hq : (0 : ℤ) ≤ (BitVec.ofNat 32 q.val).toInt := by
    rw [StableHlo.Predicate.toInt_ofNat_small _ (by omega)]; exact Int.natCast_nonneg _
  constructor <;> rw [wrap_apply_of_nonneg _ _ (by rw [withLoops_apply_loop]; exact hq), withLoops_apply_loop]

def hits (x1 : S2x160000.Idx → BitVec 32) (i j : ℤ) : ℕ :=
  (univ.filter fun e : Fin 160000 => (x1 (ix2 (1 : Fin 2) e)).toInt = i ∧ (x1 (ix2 (0 : Fin 2) e)).toInt = j).card
    + (univ.filter fun q : Fin 10000 => (q.val : ℤ) = i ∧ (q.val : ℤ) = j).card

theorem hits_le (x1 : S2x160000.Idx → BitVec 32) (i j : ℤ) : hits x1 i j ≤ 160000 + 10000 :=
  Nat.add_le_add (card_le_univ _ |>.trans_eq (Fintype.card_fin _)) (card_le_univ _ |>.trans_eq (Fintype.card_fin _))

theorem landing_card (x1 : S2x160000.Idx → BitVec 32) (hin : InRange x1) (i j : ℤ) :
    (univ.filter fun n : Fin 170000 =>
        (landing x1 (ix2 n (0 : Fin 2))).toInt = i ∧ (landing x1 (ix2 n (1 : Fin 2))).toInt = j).card = hits x1 i j := by
  unfold hits
  rw [card_filter_split]
  refine congrArg₂ (· + ·) ?_ ?_
  · refine congrArg Finset.card (Finset.filter_congr fun e _ => ?_)
    rw [(landing_edge x1 hin e).1, (landing_edge x1 hin e).2]
  · refine congrArg Finset.card (Finset.filter_congr fun q _ => ?_)
    rw [(landing_loop x1 q).1, (landing_loop x1 q).2,
      StableHlo.Predicate.toInt_ofNat_small _ (by omega)]

theorem loop_card (i j : ℕ) (hi : i < 10000) :
    (univ.filter fun q : Fin 10000 => (q.val : ℤ) = (i : ℤ) ∧ (q.val : ℤ) = (j : ℤ)).card = if i = j then 1 else 0 := by
  split
  · next h =>
    subst h
    rw [Finset.card_eq_one]
    refine ⟨⟨i, hi⟩, ?_⟩
    ext q
    simp only [mem_filter, mem_univ, true_and, mem_singleton]
    constructor
    · rintro ⟨h1, _⟩; exact Fin.ext (by exact_mod_cast h1)
    · rintro rfl; exact ⟨rfl, rfl⟩
  · next h =>
    rw [Finset.card_eq_zero, Finset.filter_eq_empty_iff]
    rintro q _ ⟨h1, h2⟩
    exact h (by omega)

theorem edges_card_eq (x1 : S2x160000.Idx → BitVec 32) (hin : InRange x1) (i j : ℕ) (hi : i < 10000) (hj : j < 10000) :
    (univ.filter fun e : Fin 160000 =>
        (x1 (ix2 (1 : Fin 2) e)).toInt = (i : ℤ) ∧ (x1 (ix2 (0 : Fin 2) e)).toInt = (j : ℤ)).card
      = (univ.filter fun e : Fin 160000 => dstOf x1 e = ⟨i, hi⟩ ∧ srcOf x1 e = ⟨j, hj⟩).card :=
  congrArg Finset.card (Finset.filter_congr fun e _ => and_congr
    (toInt_eq_iff_node_eq _ (hin 1 e).1 (hin 1 e).2 ⟨i, hi⟩) (toInt_eq_iff_node_eq _ (hin 0 e).1 (hin 0 e).2 ⟨j, hj⟩))

def countW (x1 : S2x160000.Idx → BitVec 32) : S10240x10240.Idx → BitVec 32 :=
  Host.scatter scatter_S10240x10240_S170000x2_S170000_n_01_01_1 IntOp.addi
    (broadcastInDim S10240x10240 ![] bcast_S_S10240x10240 (constantI S_ 32 0#32)) (landing x1)
    (broadcastInDim S170000 ![] bcast_S_S170000 (constantI S_ 32 1#32))

def adjW (x1 : S2x160000.Idx → BitVec 32) : S10240x10240.Idx → EReal :=
  sitofp (F := Ideal) .bf16 (countW x1)

-- An entry counts the updates landing on it: at most 170000, so the sum of ones does not wrap around.
theorem countW_toInt (x1 : S2x160000.Idx → BitVec 32) (hin : InRange x1) (i j : Fin 10240) :
    (countW x1 (ix2 i j)).toInt = (hits x1 (i.val : ℤ) (j.val : ℤ) : ℤ) := by
  unfold countW
  have hcard : (univ.filter fun n : S170000.Idx =>
        scatter_S10240x10240_S170000x2_S170000_n_01_01_1.resultIdx? n (landing x1) = some (ix2 i j)).card
      = hits x1 (i.val : ℤ) (j.val : ℤ) := by
    rw [card_filter_pos, ← landing_card x1 hin (i.val : ℤ) (j.val : ℤ)]
    exact congrArg Finset.card (Finset.filter_congr fun n _ =>
      Cert.LibScatterIdx.points_resultIdx (N := 10240) (M := 10240) (E := 170000)
        scatter_S10240x10240_S170000x2_S170000_n_01_01_1_wf _ n i j)
  have hle := hits_le x1 (i.val : ℤ) (j.val : ℤ)
  rw [scatter_addi_count_toInt _ _ _ _ _ (by rw [broadcastInDim_scalar_apply]; rfl)
    (fun u => by rw [broadcastInDim_scalar_apply]; rfl) (by rw [hcard]; omega), hcard]

variable (m : (ℓ : Loc nD τ sig) → Buf (Elt Ideal) ℓ) (c : Dev nD)

set_option maxRecDepth 1072 in
theorem V3_adj : (V3 (F := Ideal) m c main_v40 : S10240x10240.Idx → EReal) = adjW (a1 m c) := by
  have e : ∀ W : Valuation τ sig (Elt Ideal), (after (hostOps0 (F := Ideal)) W main_v40 : S10240x10240.Idx → EReal)
      = adjW (W main_arg1 : S2x160000.Idx → BitVec 32) := by
    intro W; dsimp only [hostOps0]; after_results_simp <;> rfl
  exact (V3_first m c main_v40 (by decide) (by decide)).trans (e (V0 m c))

theorem adj_apply (hin : InRange (a1 m c)) (i j : Fin 10240) :
    (V3 (F := Ideal) m c main_v40 : S10240x10240.Idx → EReal) (ix2 i j)
      = (((hits (a1 m c) (i.val : ℤ) (j.val : ℤ) : ℕ) : ℝ) : EReal) := by
  rw [V3_adj]
  unfold adjW
  rw [sitofp_apply]
  show (((countW (a1 m c) (ix2 i j)).toInt : ℝ) : EReal) = _
  rw [countW_toInt (a1 m c) hin i j, Int.cast_natCast]

-- Entry (i, j) for nodes i, j: the number of edges from j to i, plus one when i = j.
theorem adj_inside (hin : InRange (a1 m c)) (i j : Fin 10240) (hi : i.val < 10000) (hj : j.val < 10000) :
    (V3 (F := Ideal) m c main_v40 : S10240x10240.Idx → EReal) (ix2 i j)
      = (((Cert.GcnAlgebra.cnt (srcOf (a1 m c)) (dstOf (a1 m c)) ⟨i.val, hi⟩ ⟨j.val, hj⟩ : ℕ) : ℝ) : EReal) := by
  rw [adj_apply m c hin]
  unfold hits Cert.GcnAlgebra.cnt
  rw [edges_card_eq (a1 m c) hin i.val j.val hi hj, loop_card i.val j.val hi]
  simp only [Fin.mk.injEq]

-- No edge starts at, and no self-loop sits in, a column at or past 10000.
theorem adj_outside (hin : InRange (a1 m c)) (i j : Fin 10240) (hj : 10000 ≤ j.val) :
    (V3 (F := Ideal) m c main_v40 : S10240x10240.Idx → EReal) (ix2 i j) = (0 : EReal) := by
  rw [adj_apply m c hin]
  unfold hits
  rw [Finset.card_eq_zero.mpr (Finset.filter_eq_empty_iff.mpr fun e _ h =>
      absurd h.2 (by have := (hin 0 e).2; omega)),
    Finset.card_eq_zero.mpr (Finset.filter_eq_empty_iff.mpr fun q _ h => absurd h.2 (by omega))]
  simp

end Cert.KernelIdeal.KAdj

end
-- ==== Proof.GcnLayer.lean ====
import proofs.«417597_j20066087207444_2_alg».proof.Proof.GcnAlgebra
import proofs.«417597_j20066087207444_2_alg».proof.Proof.Spec

open Finset
open scoped BigOperators
open Idealize.ShloMosaic
open Cert.GcnAlgebra Cert.Spec

namespace Cert.GcnLayer

noncomputable section

theorem real_zero : ∃ r : ℝ, (0 : EReal) = (r : EReal) := ⟨0, rfl⟩

theorem real_add {x y : EReal} : (∃ r : ℝ, x = (r : EReal)) → (∃ r : ℝ, y = (r : EReal)) → ∃ r : ℝ, x + y = (r : EReal) := by
  rintro ⟨a, rfl⟩ ⟨c, rfl⟩; exact ⟨a + c, (EReal.coe_add a c).symm⟩

theorem real_mul {x y : EReal} : (∃ r : ℝ, x = (r : EReal)) → (∃ r : ℝ, y = (r : EReal)) → ∃ r : ℝ, x * y = (r : EReal) := by
  rintro ⟨a, rfl⟩ ⟨c, rfl⟩; exact ⟨a * c, (EReal.coe_mul a c).symm⟩

theorem real_max {x y : EReal} : (∃ r : ℝ, x = (r : EReal)) → (∃ r : ℝ, y = (r : EReal)) → ∃ r : ℝ, max x y = (r : EReal) := by
  rintro ⟨a, rfl⟩ ⟨c, rfl⟩; exact ⟨max a c, (EReal.coe_strictMono.monotone.map_max).symm⟩

theorem real_sum {α : Type*} (s : Finset α) (g : α → EReal)
    (hg : ∀ a, ∃ r : ℝ, g a = (r : EReal)) : ∃ r : ℝ, ∑ a ∈ s, g a = (r : EReal) := by
  choose f hf using hg
  exact ⟨∑ a ∈ s, f a, by rw [coe_sum]; exact Finset.sum_congr rfl fun a _ => hf a⟩

section Layer
variable (src dst : Fin 160000 → Fin 10000)

-- A degree is a count plus one, so at least one, and there the inverse square root is real.
theorem dinv_real (i : Fin 10000) : ∃ q : ℝ, dinv dst i = (q : EReal) := by
  unfold dinv deg
  rw [degree_coe]
  exact rsqrt_real _ (le_add_of_nonneg_left (Nat.cast_nonneg _))

theorem lin_real {K M : Nat} {h : Fin 10000 → Fin K → EReal} {W : Fin K → Fin M → EReal}
    (hh : ∀ i k, ∃ r : ℝ, h i k = (r : EReal)) (hW : ∀ k o, ∃ r : ℝ, W k o = (r : EReal))
    (i : Fin 10000) (o : Fin M) : ∃ r : ℝ, lin h W i o = (r : EReal) :=
  real_sum _ _ fun k => real_mul (hh i k) (hW k o)

theorem conv_real_valued {h : Fin 10000 → Fin 512 → EReal} {W : Fin 512 → Fin 512 → EReal}
    {b : Fin 512 → EReal}
    (hh : ∀ i k, ∃ r : ℝ, h i k = (r : EReal)) (hW : ∀ k o, ∃ r : ℝ, W k o = (r : EReal))
    (hb : ∀ o, ∃ r : ℝ, b o = (r : EReal)) (i : Fin 10000) (o : Fin 512) :
    ∃ r : ℝ, conv src dst h W b i o = (r : EReal) := by
  unfold conv
  have hd := dinv_real dst
  have hl := fun j => lin_real hh hW j o
  exact real_max
    (real_add
      (real_add
        (real_add real_zero
          (real_sum _ _ fun e => real_mul (real_mul (hd (src e)) (hd (dst e))) (hl (src e))))
        (real_mul (real_mul (hd i) (hd i)) (hl i)))
      (hb o))
    real_zero

-- The padded columns of C are zero and every entry is a coerced real, so this is conv_ereal at row i.
theorem layer_eq_conv
    {h : Fin 10000 → Fin 512 → EReal} {W : Fin 512 → Fin 512 → EReal} {b : Fin 512 → EReal}
    (hh : ∀ i k, ∃ r : ℝ, h i k = (r : EReal)) (hW : ∀ k o, ∃ r : ℝ, W k o = (r : EReal))
    (hb : ∀ o, ∃ r : ℝ, b o = (r : EReal))
    {X P H : Fin 10240 → Fin 512 → EReal} {Wa : Fin 512 → Fin 512 → EReal} {z ba : Fin 512 → EReal}
    {s : Fin 10240 → EReal} {C : Fin 10240 → Fin 10240 → EReal}
    (eP : ∀ r o, P r o = (∑ k, X r k * Wa k o) * s r + z o)
    (eH : ∀ r o, H r o = max ((∑ j, C r j * P j o) * s r + ba o) 0)
    (hX : ∀ r k (hr : r.val < 10000), X r k = h ⟨r.val, hr⟩ k) (hWa : ∀ k o, Wa k o = W k o)
    (hz : ∀ o, z o = 0) (hba : ∀ o, ba o = b o)
    (hs : ∀ r (hr : r.val < 10000), s r = dinv dst ⟨r.val, hr⟩)
    (hCin : ∀ i j (hi : i.val < 10000) (hj : j.val < 10000),
      C i j = ((cnt src dst ⟨i.val, hi⟩ ⟨j.val, hj⟩ : ℝ) : EReal))
    (hCout : ∀ i j, 10000 ≤ j.val → C i j = 0)
    (i : Fin 10240) (hi : i.val < 10000) (o : Fin 512) :
    H i o = conv src dst h W b ⟨i.val, hi⟩ o := by
  choose dR hdR using dinv_real dst
  choose lR hlR using fun j => lin_real hh hW j o
  obtain ⟨bR, hbR⟩ := hb o
  have hterm : ∀ j : Fin 10000, C i ⟨j.val, by omega⟩ * P ⟨j.val, by omega⟩ o
      = ((cnt src dst ⟨i.val, hi⟩ j : ℝ) : EReal) * ((lR j : EReal) * (dR j : EReal) + 0) := fun j => by
    rw [hCin i ⟨j.val, by omega⟩ hi j.isLt, eP, hs _ j.isLt, hz, ← hdR, ← hlR, lin]
    simp only [hX ⟨j.val, by omega⟩ _ j.isLt, hWa]
  rw [eH, hba, hs i hi]
  unfold conv
  refine congrArg (fun x => max x (0 : EReal)) ?_
  rw [sum_drop_zero_tail (by decide : 10000 ≤ 10240) _ fun j hj => by rw [hCout i j hj, zero_mul],
    Finset.sum_congr rfl fun j _ => hterm j, hdR, hbR, conv_ereal]
  simp only [hdR, hlR]

end Layer

end

end Cert.GcnLayer
-- ==== Proof.Bridge.lean ====
import proofs.«417597_j20066087207444_2_alg».proof.Proof.Run
import proofs.«417597_j20066087207444_2_alg».proof.Proof.Value0
import proofs.«417597_j20066087207444_2_alg».proof.Proof.Value1
import proofs.«417597_j20066087207444_2_alg».proof.Proof.Value2
import proofs.«417597_j20066087207444_2_alg».proof.Proof.Value3
import proofs.«417597_j20066087207444_2_alg».proof.Proof.Value4
import proofs.«417597_j20066087207444_2_alg».proof.Proof.KHost
import proofs.«417597_j20066087207444_2_alg».proof.Proof.KAdj
import proofs.«417597_j20066087207444_2_alg».proof.Proof.GcnLayer
import proofs.«417597_j20066087207444_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Bridge

open Cert.KernelIdeal Cert.KernelIdeal.Gen Cert.KernelIdeal.Hand Idealize.ShloMosaic Idealize.ShloMosaic.TcCoe
  Idealize.ShloMosaic.ValueIdx Idealize.ShloMosaic.StableHlo
open Finset
open Cert.KernelIdeal.KHost (a0 a1 a2 a3 a4 a5 a6 a7)

theorem corner_apply {α : Type} (x : S10240x128.Idx → α) (h : S10240x128.Slices ![0, 0] S10000x16) (i : Fin 10000) (o : Fin 16) :
    extractStridedSlice S10000x16 ![0, 0] x h (ix2 i o)
      = x (ix2 (⟨i.val, by omega⟩ : Fin 10240) (⟨o.val, by omega⟩ : Fin 128)) :=
  extractStridedSlice_apply _ _ _ _ _ (fun ax => by
    match ax with
    | ⟨0, _⟩ => exact (Nat.zero_add _).symm
    | ⟨1, _⟩ => exact (Nat.zero_add _).symm)

variable (m : (ℓ : Loc nD τ sig) → Buf (Elt Ideal) ℓ) (c : Dev nD)

abbrev feat : S10240x512.Idx → EReal := V3 (F := Ideal) m c main_v42
abbrev wts1 : S512x512.Idx → EReal := V3 (F := Ideal) m c main_v43
abbrev wts2 : S512x512.Idx → EReal := V3 (F := Ideal) m c main_v44
abbrev headW : S512x128.Idx → EReal := V3 (F := Ideal) m c main_v48
abbrev headB : S1x128.Idx → EReal := V3 (F := Ideal) m c main_v53
abbrev zeroRow : S1x512.Idx → EReal := V3 (F := Ideal) m c main_v54
abbrev bias1 : S1x512.Idx → EReal := V3 (F := Ideal) m c main_v55
abbrev bias2 : S1x512.Idx → EReal := V3 (F := Ideal) m c main_v56
abbrev unitCol : S10240x1.Idx → EReal := V3 (F := Ideal) m c main_v20
abbrev scaleCol : S10240x1.Idx → EReal := V3 (F := Ideal) m c main_v19
abbrev adj : S10240x10240.Idx → EReal := V3 (F := Ideal) m c main_v40

abbrev out0 : S10240x512.Idx → EReal := U4 (F := Ideal) m c main_v57
abbrev out1 : S10240x512.Idx → EReal := U5 (F := Ideal) m c main_v58
abbrev out2 : S10240x512.Idx → EReal := U6 (F := Ideal) m c main_v59
abbrev out3 : S10240x512.Idx → EReal := U7 (F := Ideal) m c main_v60
abbrev out4 : S10240x128.Idx → EReal := U8 (F := Ideal) m c main_v61

theorem U4_v40 : (U4 (F := Ideal) m c main_v40 : S10240x10240.Idx → EReal) = adj m c :=
  W4_of_ne m c main_v40 (by decide)
theorem U4_v19 : (U4 (F := Ideal) m c main_v19 : S10240x1.Idx → EReal) = scaleCol m c :=
  W4_in m c 3 rfl
theorem U4_v55 : (U4 (F := Ideal) m c main_v55 : S1x512.Idx → EReal) = bias1 m c :=
  W4_of_ne m c main_v55 (by decide)

theorem U5_v44 : (U5 (F := Ideal) m c main_v44 : S512x512.Idx → EReal) = wts2 m c :=
  (W5_of_ne m c main_v44 (by decide)).trans (W4_of_ne m c main_v44 (by decide))
theorem U5_v19 : (U5 (F := Ideal) m c main_v19 : S10240x1.Idx → EReal) = scaleCol m c :=
  (W5_in m c 2 rfl).trans (U4_v19 m c)
theorem U5_v54 : (U5 (F := Ideal) m c main_v54 : S1x512.Idx → EReal) = zeroRow m c :=
  (W5_of_ne m c main_v54 (by decide)).trans (W4_in m c 2 rfl)

theorem U6_v40 : (U6 (F := Ideal) m c main_v40 : S10240x10240.Idx → EReal) = adj m c :=
  (W6_of_ne m c main_v40 (by decide)).trans <| (W5_in m c 0 rfl).trans (U4_v40 m c)
theorem U6_v19 : (U6 (F := Ideal) m c main_v19 : S10240x1.Idx → EReal) = scaleCol m c :=
  (W6_in m c 3 rfl).trans (U5_v19 m c)
theorem U6_v56 : (U6 (F := Ideal) m c main_v56 : S1x512.Idx → EReal) = bias2 m c :=
  (W6_of_ne m c main_v56 (by decide)).trans <| (W5_of_ne m c main_v56 (by decide)).trans (W4_of_ne m c main_v56 (by decide))

theorem U7_v48 : (U7 (F := Ideal) m c main_v48 : S512x128.Idx → EReal) = headW m c :=
  (W7_of_ne m c main_v48 (by decide)).trans <| (W6_of_ne m c main_v48 (by decide)).trans <|
    (W5_of_ne m c main_v48 (by decide)).trans (W4_of_ne m c main_v48 (by decide))
theorem U7_v53 : (U7 (F := Ideal) m c main_v53 : S1x128.Idx → EReal) = headB m c :=
  (W7_of_ne m c main_v53 (by decide)).trans <| (W6_of_ne m c main_v53 (by decide)).trans <|
    (W5_of_ne m c main_v53 (by decide)).trans (W4_of_ne m c main_v53 (by decide))
theorem U7_v20 : (U7 (F := Ideal) m c main_v20 : S10240x1.Idx → EReal) = unitCol m c :=
  (W7_of_ne m c main_v20 (by decide)).trans <| (W6_of_ne m c main_v20 (by decide)).trans <|
    (W5_of_ne m c main_v20 (by decide)).trans (W4_of_ne m c main_v20 (by decide))

theorem out0_apply (r : Fin 10240) (o : Fin 512) :
    out0 m c (ix2 r o)
      = (∑ k : Fin 512, feat m c (ix2 r k) * wts1 m c (ix2 k o)) * scaleCol m c (ix2 r (0 : Fin 1))
        + zeroRow m c (ix2 (0 : Fin 1) o) :=
  (congrFun (show out0 m c = ((dat0 (F := Ideal) (U3 m) c).arrAt 4 cfg0.N : S10240x512.Idx → EReal)
      from W4_arr m c 4) (ix2 r o)).trans (Cert.KernelIdeal.HandValue.final0_apply (U3 m) c r o)

theorem out1_apply (r : Fin 10240) (o : Fin 512) :
    out1 m c (ix2 r o)
      = max ((∑ j : Fin 10240, adj m c (ix2 r j) * out0 m c (ix2 j o)) * scaleCol m c (ix2 r (0 : Fin 1))
          + bias1 m c (ix2 (0 : Fin 1) o)) 0 := by
  rw [← U4_v40 m c, ← U4_v19 m c, ← U4_v55 m c]
  exact (congrFun (show out1 m c = ((dat1 (F := Ideal) (U4 m) c).arrAt 4 cfg1.N : S10240x512.Idx → EReal)
    from W5_arr m c 4) (ix2 r o)).trans (Cert.KernelIdeal.HandValue.final1_apply (U4 m) c r o)

theorem out2_apply (r : Fin 10240) (o : Fin 512) :
    out2 m c (ix2 r o)
      = (∑ k : Fin 512, out1 m c (ix2 r k) * wts2 m c (ix2 k o)) * scaleCol m c (ix2 r (0 : Fin 1))
        + zeroRow m c (ix2 (0 : Fin 1) o) := by
  rw [← U5_v44 m c, ← U5_v19 m c, ← U5_v54 m c]
  exact (congrFun (show out2 m c = ((dat2 (F := Ideal) (U5 m) c).arrAt 4 cfg2.N : S10240x512.Idx → EReal)
    from W6_arr m c 4) (ix2 r o)).trans (Cert.KernelIdeal.HandValue.final2_apply (U5 m) c r o)

theorem out3_apply (r : Fin 10240) (o : Fin 512) :
    out3 m c (ix2 r o)
      = max ((∑ j : Fin 10240, adj m c (ix2 r j) * out2 m c (ix2 j o)) * scaleCol m c (ix2 r (0 : Fin 1))
          + bias2 m c (ix2 (0 : Fin 1) o)) 0 := by
  rw [← U6_v40 m c, ← U6_v19 m c, ← U6_v56 m c]
  exact (congrFun (show out3 m c = ((dat3 (F := Ideal) (U6 m) c).arrAt 4 cfg3.N : S10240x512.Idx → EReal)
    from W7_arr m c 4) (ix2 r o)).trans (Cert.KernelIdeal.HandValue.final3_apply (U6 m) c r o)

theorem out4_apply (r : Fin 10240) (o : Fin 128) :
    out4 m c (ix2 r o)
      = (∑ k : Fin 512, out3 m c (ix2 r k) * headW m c (ix2 k o)) * unitCol m c (ix2 r (0 : Fin 1))
        + headB m c (ix2 (0 : Fin 1) o) := by
  rw [← U7_v48 m c, ← U7_v20 m c, ← U7_v53 m c]
  exact (congrFun (show out4 m c = ((dat4 (F := Ideal) (U7 m) c).arrAt 4 cfg4.N : S10240x128.Idx → EReal)
    from W8_arr m c 4) (ix2 r o)).trans (Cert.KernelIdeal.HandValue.final4_apply (U7 m) c r o)

theorem result_apply (i : Fin 10000) (o : Fin 16) :
    (W9 (F := Ideal) m c main_v62 : S10000x16.Idx → EReal) (ix2 i o)
      = out4 m c (ix2 (⟨i.val, by omega⟩ : Fin 10240) (⟨o.val, by omega⟩ : Fin 128)) := by
  have e : ∀ h : S10240x128.Slices ![0, 0] S10000x16, (W9 (F := Ideal) m c main_v62 : S10000x16.Idx → EReal)
      = extractStridedSlice S10000x16 ![0, 0] (out4 m c) h := by
    intro h
    show StableHlo.after (hostOps5 (F := Ideal)) _ (Proc.devRef .tc main_v62) = _
    dsimp only [hostOps5]
    after_results <;> rfl
  rw [e Facts₀.slices_S10240x128_S10000x16_0_0]
  exact corner_apply _ _ i o

-- Regions 0, 1 are one convolution of the features, regions 2, 3 one of its result, region 4 the head at unit scale.
theorem kernel_eq_spec (hr0 : Cert.Spec.IsReal (a0 m c)) (hin : Cert.Spec.InRange (a1 m c))
    (hr2 : Cert.Spec.IsReal (a2 m c)) (hr3 : Cert.Spec.IsReal (a3 m c)) (hr4 : Cert.Spec.IsReal (a4 m c))
    (hr5 : Cert.Spec.IsReal (a5 m c)) (hr6 : Cert.Spec.IsReal (a6 m c)) (hr7 : Cert.Spec.IsReal (a7 m c))
    (i : Fin 10000) (o : Fin 16) :
    (W9 (F := Ideal) m c main_v62 : S10000x16.Idx → EReal) (ix2 i o)
      = Cert.Spec.out (Cert.Spec.srcOf (a1 m c)) (Cert.Spec.dstOf (a1 m c)) (fun i k => a0 m c (ix2 i k))
          (fun k o => a2 m c (ix2 k o)) (fun o => a3 m c (ix1 o)) (fun k o => a4 m c (ix2 k o)) (fun o => a5 m c (ix1 o))
          (fun k o => a6 m c (ix2 k o)) (fun o => a7 m c (ix1 o)) i o := by
  have hx := fun i k => hr0 (ix2 i k)
  have hW1 := fun k o => hr2 (ix2 k o)
  have hb1 := fun o => hr3 (ix1 o)
  have hs := KHost.v19_apply m c hin
  have hC := KAdj.adj_inside m c hin
  have hC0 := KAdj.adj_outside m c hin
  have l1 := Cert.GcnLayer.layer_eq_conv (Cert.Spec.srcOf (a1 m c)) (Cert.Spec.dstOf (a1 m c)) hx hW1 hb1
    (out0_apply m c) (out1_apply m c) (KHost.v42_apply m c) (KHost.v43_apply m c) (KHost.v54_apply m c)
    (KHost.v55_apply m c) hs hC hC0
  have l2 := Cert.GcnLayer.layer_eq_conv (Cert.Spec.srcOf (a1 m c)) (Cert.Spec.dstOf (a1 m c))
    (Cert.GcnLayer.conv_real_valued _ _ hx hW1 hb1) (fun k o => hr4 (ix2 k o)) (fun o => hr5 (ix1 o))
    (out2_apply m c) (out3_apply m c) (fun r k hr => l1 r hr k) (KHost.v44_apply m c) (KHost.v54_apply m c)
    (KHost.v56_apply m c) hs hC hC0
  rw [result_apply, out4_apply, show unitCol m c _ = 1 from KHost.v20_apply m c _, mul_one,
    show headB m c _ = _ from KHost.v53_apply m c _ o.isLt]
  unfold Cert.Spec.out Cert.Spec.lin
  refine congrArg (· + a7 m c (ix1 o)) (Finset.sum_congr rfl fun k _ => ?_)
  rw [l2 _ i.isLt k, show headW m c _ = _ from KHost.v48_apply m c k _ o.isLt]

end Cert.KernelIdeal.Bridge

end
-- ==== Proof.lean ====
/- Both programs compute two graph convolutions D^(-1/2) (A + I) D^(-1/2) (h W) + b under max(., 0) and a linear head: a sum over
   the edges into i of a function of the source is the sum over all nodes j of (edges from j to i) times that function at j. -/
import proofs.«417597_j20066087207444_2_alg».proof.Defs
import proofs.«417597_j20066087207444_2_alg».proof.Proof.Gen.Kernel
import proofs.«417597_j20066087207444_2_alg».proof.Proof.Gen.KernelIdeal
import proofs.«417597_j20066087207444_2_alg».proof.Proof.Gen.ReferenceIdeal
import proofs.«417597_j20066087207444_2_alg».proof.Proof.Gen.Pre_finite_inputs
import proofs.«417597_j20066087207444_2_alg».proof.Proof.Run
import proofs.«417597_j20066087207444_2_alg».proof.Proof.BitsRun
import proofs.«417597_j20066087207444_2_alg».proof.Proof.RefValue
import proofs.«417597_j20066087207444_2_alg».proof.Proof.PreFacts
import proofs.«417597_j20066087207444_2_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Hand.frame_all m ρ

theorem frame_ki : Cert.frame_KernelIdeal := fun m ρ _ => Cert.KernelIdeal.Hand.frame_all m ρ

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' hpre hagree
  refine ⟨fun c => Cert.KernelIdeal.Hand.W9 (F := Ideal) m c Cert.KernelIdeal.main_v62,
    Cert.KernelIdeal.Hand.run_value m ρ, ?_⟩
  refine (θ_run Cert.ReferenceIdeal.defs _ _).mono (fun _ h c => ⟨(h c).1.trans ?_, (h c).2⟩)
    (Cert.ReferenceIdeal.RefValue.run_val m' ρ')
  obtain ⟨hr0, hin, hr2, hr3, hr4, hr5, hr6, hr7⟩ := Cert.PreFacts.facts_of_pre _ _ _ _ _ _ _ _ (hpre c)
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  funext idx
  obtain ⟨i, o, rfl⟩ : ∃ (i : Fin 10000) (o : Fin 16), idx = ix2 i o := ⟨idx 0, idx 1, eq_ix2 idx⟩
  rw [Cert.ReferenceIdeal.RefValue.ref_eq_spec _ _ _ _ _ _ _ _ hin i o]
  exact (Cert.KernelIdeal.Bridge.kernel_eq_spec m c hr0 hin hr2 hr3 hr4 hr5 hr6 hr7 i o).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
